-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S1x131072 : Shape := ⟨2, ![1, 131072]⟩
abbrev S131072 : Shape := ⟨1, ![131072]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  slices_S2x131072_S1x131072_1_0 : S2x131072.Slices ![1, 0] S1x131072
  shapeCasts_S1x131072_S131072 : S1x131072.ShapeCasts S131072
  bcast_S_S131072 : S_.BroadcastsInDim S131072 (![] : Fin 0 → Fin S131072.rank)
  reducesTo_S131072_S_d0 : S131072.ReducesTo [0] S_

variable [Facts]

def fn_part2 {F : FTy → Type} [FloatOps F] (main_arg1 : IVec S2x131072 32) (main_v33 : IVec S_ 1) : IVec S_ 1 :=
  let main_v34 : IVec S1x131072 32 := (extractStridedSlice S1x131072 ![1, 0] · slices_S2x131072_S1x131072_1_0) main_arg1
  let main_v35 : IVec S131072 32 := shapeCast S131072 main_v34 shapeCasts_S1x131072_S131072
  let main_c_12 : IVec S_ 32 := constantI S_ 32 4294963200#32
  let main_v36 : IVec S131072 32 := broadcastInDim S131072 ![] bcast_S_S131072 main_c_12
  let main_v37 : IVec S131072 1 := cmpi .sge main_v35 main_v36
  let main_v38 : IVec S1x131072 32 := (extractStridedSlice S1x131072 ![1, 0] · slices_S2x131072_S1x131072_1_0) main_arg1
  let main_v39 : IVec S131072 32 := shapeCast S131072 main_v38 shapeCasts_S1x131072_S131072
  let main_c_13 : IVec S_ 32 := constantI S_ 32 4096#32
  let main_v40 : IVec S131072 32 := broadcastInDim S131072 ![] bcast_S_S131072 main_c_13
  let main_v41 : IVec S131072 1 := cmpi .slt main_v39 main_v40
  let main_v42 : IVec S131072 1 := andi main_v37 main_v41
  let main_c_14 : IVec S_ 1 := constantI S_ 1 1#1
  let main_v43 : IVec S_ 1 := (fun x v => Host.reduce IntOp.andi x v reducesTo_S131072_S_d0 h_S_) main_v42 main_c_14
  let main_v44 : IVec S_ 1 := andi main_v33 main_v43
  main_v44

def fn_part1 {F : FTy → Type} [FloatOps F] (main_arg1 : IVec S2x131072 32) (main_arg5 : FVec F S128x128 .f32) (main_arg6 : FVec F S1x128 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S4096x128 .f32) (main_arg1 : IVec S2x131072 32) (main_arg2 : FVec F S128x128 .f32) (main_arg3 : FVec F S128 .f32) (main_arg4 : FVec F S128x128 .f32) (main_arg5 : FVec F S128x128 .f32) (main_arg6 : FVec F S1x128 .f32) (main_arg7 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x1 : Shape := ⟨2, ![128, 1]⟩
abbrev S1x1 : Shape := ⟨2, ![1, 1]⟩
abbrev S4096x1 : Shape := ⟨2, ![4096, 1]⟩
abbrev S1024x128 : Shape := ⟨2, ![1024, 128]⟩
abbrev S1024x1 : Shape := ⟨2, ![1024, 1]⟩
abbrev S1x131072 : Shape := ⟨2, ![1, 131072]⟩
abbrev S131072 : Shape := ⟨1, ![131072]⟩
abbrev S4096 : Shape := ⟨1, ![4096]⟩
abbrev S_ : Shape := ⟨0, ![]⟩
abbrev S131072x1 : Shape := ⟨2, ![131072, 1]⟩
abbrev S4096x4096 : Shape := ⟨2, ![4096, 4096]⟩
abbrev S131072x2 : Shape := ⟨2, ![131072, 2]⟩
abbrev S1024x1024 : Shape := ⟨2, ![1024, 1024]⟩

abbrev nBuf : Space → Nat
  | .hbm => 80
  | .vmem => 44
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x1, .f32⟩
  | .hbm, ⟨12, _⟩ => ⟨S1x128, .f32⟩
  | .hbm, ⟨13, _⟩ => ⟨S1x1, .f32⟩
  | .hbm, ⟨14, _⟩ => ⟨S4096x1, .f32⟩
  | .hbm, ⟨15, _⟩ => ⟨S1x131072, .i32⟩
  | .hbm, ⟨16, _⟩ => ⟨S131072, .i32⟩
  | .hbm, ⟨17, _⟩ => ⟨S1x131072, .i32⟩
  | .hbm, ⟨18, _⟩ => ⟨S131072, .i32⟩
  | .hbm, ⟨19, _⟩ => ⟨S4096, .f32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S1, .i32⟩
  | .hbm, ⟨29, _⟩ => ⟨S_, .i32⟩
  | .hbm, ⟨30, _⟩ => ⟨S131072x1, .i32⟩
  | .hbm, ⟨31, _⟩ => ⟨S131072x1, .i1⟩
  | .hbm, ⟨32, _⟩ => ⟨S1x1, .i32⟩
  | .hbm, ⟨33, _⟩ => ⟨S131072x1, .i32⟩
  | .hbm, ⟨34, _⟩ => ⟨S131072x1, .i1⟩
  | .hbm, ⟨35, _⟩ => ⟨S131072x1, .i1⟩
  | .hbm, ⟨36, _⟩ => ⟨S_, .i1⟩
  | .hbm, ⟨37, _⟩ => ⟨S131072, .i1⟩
  | .hbm, ⟨38, _⟩ => ⟨S131072, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S_, .f32⟩
  | .hbm, ⟨46, _⟩ => ⟨S4096, .f32⟩
  | .hbm, ⟨47, _⟩ => ⟨S131072x1, .i32⟩
  | .hbm, ⟨48, _⟩ => ⟨S4096, .f32⟩
  | .hbm, ⟨49, _⟩ => ⟨S4096x1, .f32⟩
  | .hbm, ⟨50, _⟩ => ⟨S4096x1, .f32⟩
  | .hbm, ⟨51, _⟩ => ⟨S_, .bf16⟩
  | .hbm, ⟨52, _⟩ => ⟨S4096x4096, .bf16⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S_, .i32⟩
  | .hbm, ⟨61, _⟩ => ⟨S131072, .i32⟩
  | .hbm, ⟨62, _⟩ => ⟨S131072, .i1⟩
  | .hbm, ⟨63, _⟩ => ⟨S_, .i32⟩
  | .hbm, ⟨64, _⟩ => ⟨S131072, .i32⟩
  | .hbm, ⟨65, _⟩ => ⟨S131072, .i32⟩
  | .hbm, ⟨66, _⟩ => ⟨S131072, .i32⟩
  | .hbm, ⟨67, _⟩ => ⟨S131072x1, .i32⟩
  | .hbm, ⟨68, _⟩ => ⟨S131072x1, .i32⟩
  | .hbm, ⟨69, _⟩ => ⟨S131072x2, .i32⟩
  | .hbm, ⟨70, _⟩ => ⟨S_, .bf16⟩
  | .hbm, ⟨71, _⟩ => ⟨S131072, .bf16⟩
  | .hbm, ⟨72, _⟩ => ⟨S4096x4096, .bf16⟩
  | .hbm, ⟨73, _⟩ => ⟨S4096x1, .bf16⟩
  | .hbm, ⟨74, _⟩ => ⟨S4096x4096, .bf16⟩
  | .hbm, ⟨75, _⟩ => ⟨S4096x1, .f32⟩
  | .hbm, ⟨76, _⟩ => ⟨S4096x1, .f32⟩
  | .hbm, ⟨77, _⟩ => ⟨S4096x1, .bf16⟩
  | .hbm, ⟨78, _⟩ => ⟨S4096x1, .f32⟩
  | .hbm, ⟨79, _⟩ => ⟨S4096x1, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x1, .f32⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1, .bf16⟩
  | .local _ .vmem, ⟨15, _⟩ => ⟨S1024x1, .bf16⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1024, .bf16⟩
  | .local _ .vmem, ⟨21, _⟩ => ⟨S1024x1024, .bf16⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1024, .f32⟩
  | .local _ .vmem, ⟨27, _⟩ => ⟨S1024x1, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1, .bf16⟩
  | .local _ .vmem, ⟨33, _⟩ => ⟨S1024x1, .bf16⟩
  | .local _ .vmem, ⟨34, _⟩ => ⟨S1024x1, .f32⟩
  | .local _ .vmem, ⟨35, _⟩ => ⟨S1024x1, .f32⟩
  | .local _ .vmem, ⟨36, _⟩ => ⟨S1024x1, .f32⟩
  | .local _ .vmem, ⟨37, _⟩ => ⟨S1024x1, .f32⟩
  | .local _ .vmem, ⟨38, _⟩ => ⟨S1024x1, .f32⟩
  | .local _ .vmem, ⟨39, _⟩ => ⟨S1024x1, .f32⟩
  | .local _ .vmem, ⟨40, _⟩ => ⟨S1024x1, .f32⟩
  | .local _ .vmem, ⟨41, _⟩ => ⟨S1024x1, .f32⟩
  | .local _ .vmem, ⟨42, _⟩ => ⟨S1024x1024, .f32⟩
  | .local _ .vmem, ⟨43, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_c : Ref sig .tc := ⟨.hbm, 53, rfl⟩
abbrev main_v21 : Ref sig .tc := ⟨.hbm, 54, rfl⟩
abbrev main_v22 : Ref sig .tc := ⟨.hbm, 55, rfl⟩
abbrev main_c_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37_0 : Ref sig .tc := ⟨.hbm, 74, rfl⟩
abbrev main_v37_1 : Ref sig .tc := ⟨.hbm, 75, rfl⟩
abbrev main_v37_2 : Ref sig .tc := ⟨.hbm, 76, rfl⟩
abbrev main_v38 : Ref sig .tc := ⟨.hbm, 77, rfl⟩
abbrev main_v39_0 : Ref sig .tc := ⟨.hbm, 78, rfl⟩
abbrev main_v39_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_scratch0 : Ref sig .tc := ⟨.vmem, 42, rfl⟩
abbrev cc2_scratch1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def k1_cond4 (i : grid1.Coords) : BitVec 1 :=
  let arg1 : BitVec 32 := BitVec.ofNat 32 (i 1).val
  let c3_i32_12 : BitVec 32 := 3#32
  let v21 : BitVec 1 := Scalar.cmpi .eq arg1 c3_i32_12
  let arg2 : BitVec 32 := BitVec.ofNat 32 (i 2).val
  let c3_i32_13 : BitVec 32 := 3#32
  let v22 : BitVec 1 := Scalar.cmpi .eq arg2 c3_i32_13
  let v23 : BitVec 1 := Scalar.andi v21 v22
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev grid2 : Pipeline.Grid := ⟨3, ![4, 4, 4], ![false, false, false]⟩

def k2_cond4 (i : grid2.Coords) : BitVec 1 :=
  let arg1 : BitVec 32 := BitVec.ofNat 32 (i 1).val
  let c3_i32_12 : BitVec 32 := 3#32
  let v21 : BitVec 1 := Scalar.cmpi .eq arg1 c3_i32_12
  let arg2 : BitVec 32 := BitVec.ofNat 32 (i 2).val
  let c3_i32_13 : BitVec 32 := 3#32
  let v22 : BitVec 1 := Scalar.cmpi .eq arg2 c3_i32_13
  let v23 : BitVec 1 := Scalar.andi v21 v22
  let v24 : BitVec 32 := Scalar.extui v23
  let c0_i32_14 : BitVec 32 := 0#32
  let v25 : BitVec 1 := Scalar.cmpi .ne v24 c0_i32_14
  v25

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

class Facts₀ : Prop where
  transposes_S128x128_S128x128_1_0 : S128x128.Transposes [1, 0] S128x128
  transposes_S1x128_S128x1_1_0 : S1x128.Transposes [1, 0] S128x1
  shapeCasts_S128_S1x128 : S128.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  slices_S2x131072_S1x131072_0_0 : S2x131072.Slices ![0, 0] S1x131072
  shapeCasts_S1x131072_S131072 : S1x131072.ShapeCasts S131072
  slices_S2x131072_S1x131072_1_0 : S2x131072.Slices ![1, 0] S1x131072
  shapeCasts_S4096x1_S4096 : S4096x1.ShapeCasts S4096
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S_S4096 : S_.BroadcastsInDim S4096 (![] : Fin 0 → Fin S4096.rank)
  shapeCasts_S4096_S4096x1 : S4096.ShapeCasts S4096x1
  bcast_S_S4096x4096 : S_.BroadcastsInDim S4096x4096 (![] : Fin 0 → Fin S4096x4096.rank)
  concatenates_S131072x1_S131072x1_S131072x2_d1 : Shape.Concatenates [S131072x1, S131072x1] S131072x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1_S1024x1 : S1024x1.ShapeCasts S1024x1
  natLt_1_32 : 1 < 32
  packedbf16_S1024x1024_S1024x1024_0_0 : (Rect.unit (s := S1024x1024) ![0, 0] S1024x1024.size inb_S1024x1024_S1024x1024_0_0).PackedRows (EltTy.packing .bf16)
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  gather_S4096_S131072x1_S131072_n_0_n_n_0_1_1_wf : GatherDims.WF S4096 S131072x1 S131072 [] [0] [] [0] [] 1 ![1]
  scatter_S4096_S131072x1_S131072_n_0_0_1_wf : ScatterDims.WF S4096 S131072x1 S131072 [] [0] [0] 1
  scatter_S4096x4096_S131072x2_S131072_n_01_01_1_wf : ScatterDims.WF S4096x4096 S131072x2 S131072 [] [0, 1] [0, 1] 1
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .bf16 = 32 ∨ (Rect.block (s := S4096x1) S1024x1.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .bf16 = 32 ∨ (Rect.block (s := S4096x4096) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S4096x1.size a
  hwx1_6 : ∀ i : grid1.Coords, EltTy.bits .f32 = 32 ∨ (Rect.block (s := S4096x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S4096x1.size a
  hwx1_7 : ∀ i : grid1.Coords, EltTy.bits .f32 = 32 ∨ (Rect.block (s := S4096x1) S1024x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .bf16 = 32 ∨ (Rect.block (s := S4096x1) S1024x1.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S4096x1.size a
  hwx2_5 : ∀ i : grid2.Coords, EltTy.bits .f32 = 32 ∨ (Rect.block (s := S4096x1) S1024x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S4096x1.size a
  hwx2_6 : ∀ i : grid2.Coords, EltTy.bits .f32 = 32 ∨ (Rect.block (s := S4096x1) S1024x1.size (cc2_transform_6 i) (hinb2_6 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def gather_S4096_S131072x1_S131072_n_0_n_n_0_1_1 : GatherDims S4096 S131072x1 S131072 where
  offsetDims := []
  collapsedSliceDims := [0]
  operandBatchingDims := []
  startIndicesBatchingDims := []
  startIndexMap := [0]
  indexVectorDim := 1
  sliceSizes := ![1]
  wf := gather_S4096_S131072x1_S131072_n_0_n_n_0_1_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_0) S1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37_1) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v37_2) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond3 i == 1#1) | 6 => fun i => !(k1_cond4 i == 1#1) | 7 => fun i => !(k1_cond4 i == 1#1) | ⟨_ + 8, h⟩ => absurd h (Nat.not_lt.2 (Nat.le_add_left _ _))

abbrev win2_0 : Pipeline.Window sig grid2 :=
  Pipeline.Window.ofSpec (Memref.whole main_v37_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37_1) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37_2) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S1024x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S1024x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond4 i == 1#1) | 6 => fun i => !(k2_cond4 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S2x131072 : Shape := ⟨2, ![2, 131072]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S128x1 : Shape := ⟨2, ![128, 1]⟩
abbrev S4096x1 : Shape := ⟨2, ![4096, 1]⟩
abbrev S1x1 : Shape := ⟨2, ![1, 1]⟩
abbrev S1x131072 : Shape := ⟨2, ![1, 131072]⟩
abbrev S131072 : Shape := ⟨1, ![131072]⟩
abbrev S131072x1 : Shape := ⟨2, ![131072, 1]⟩
abbrev S4096x4096 : Shape := ⟨2, ![4096, 4096]⟩
abbrev S131072x2 : Shape := ⟨2, ![131072, 2]⟩

abbrev nBuf : Space → Nat
  | .hbm => 97
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1, .f32⟩
  | .hbm, ⟨8, _⟩ => ⟨S128x128, .f32⟩
  | .hbm, ⟨9, _⟩ => ⟨S4096x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S4096x128, .f32⟩
  | .hbm, ⟨16, _⟩ => ⟨S128x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S128x128, .f32⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S128x1, .f32⟩
  | .hbm, ⟨27, _⟩ => ⟨S4096x1, .f32⟩
  | .hbm, ⟨28, _⟩ => ⟨S1x1, .f32⟩
  | .hbm, ⟨29, _⟩ => ⟨S4096x1, .f32⟩
  | .hbm, ⟨30, _⟩ => ⟨S4096x1, .f32⟩
  | .hbm, ⟨31, _⟩ => ⟨S1x131072, .i32⟩
  | .hbm, ⟨32, _⟩ => ⟨S131072, .i32⟩
  | .hbm, ⟨33, _⟩ => ⟨S1x131072, .i32⟩
  | .hbm, ⟨34, _⟩ => ⟨S131072, .i32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072x1, .f32⟩
  | .hbm, ⟨44, _⟩ => ⟨S_, .f32⟩
  | .hbm, ⟨45, _⟩ => ⟨S131072x1, .f32⟩
  | .hbm, ⟨46, _⟩ => ⟨S131072x1, .f32⟩
  | .hbm, ⟨47, _⟩ => ⟨S_, .f32⟩
  | .hbm, ⟨48, _⟩ => ⟨S4096x1, .f32⟩
  | .hbm, ⟨49, _⟩ => ⟨S131072x1, .i32⟩
  | .hbm, ⟨50, _⟩ => ⟨S4096x1, .f32⟩
  | .hbm, ⟨51, _⟩ => ⟨S4096x1, .f32⟩
  | .hbm, ⟨52, _⟩ => ⟨S_, .i1⟩
  | .hbm, ⟨53, _⟩ => ⟨S4096x4096, .i1⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S_, .i32⟩
  | .hbm, ⟨62, _⟩ => ⟨S131072, .i32⟩
  | .hbm, ⟨63, _⟩ => ⟨S131072, .i1⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S131072, .i32⟩
  | .hbm, ⟨68, _⟩ => ⟨S131072x1, .i32⟩
  | .hbm, ⟨69, _⟩ => ⟨S131072x1, .i32⟩
  | .hbm, ⟨70, _⟩ => ⟨S131072x2, .i32⟩
  | .hbm, ⟨71, _⟩ => ⟨S_, .i1⟩
  | .hbm, ⟨72, _⟩ => ⟨S131072, .i1⟩
  | .hbm, ⟨73, _⟩ => ⟨S4096x4096, .i1⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .i1⟩
  | .hbm, ⟨79, _⟩ => ⟨S4096x4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S4096x1, .f32⟩
  | .hbm, ⟨86, _⟩ => ⟨S4096x4096, .f32⟩
  | .hbm, ⟨87, _⟩ => ⟨S_, .f32⟩
  | .hbm, ⟨88, _⟩ => ⟨S4096x4096, .f32⟩
  | .hbm, ⟨89, _⟩ => ⟨S4096x4096, .i1⟩
  | .hbm, ⟨90, _⟩ => ⟨S4096x4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call2_cst : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_c_3 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S1x128_S128x1_1_0 : S1x128.Transposes [1, 0] S128x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S4096x1 : S_.BroadcastsInDim S4096x1 (![] : Fin 0 → Fin S4096x1.rank)
  bcast_S_S4096x4096 : S_.BroadcastsInDim S4096x4096 (![] : Fin 0 → Fin S4096x4096.rank)
  concatenates_S131072x1_S131072x1_S131072x2_d1 : Shape.Concatenates [S131072x1, S131072x1] S131072x2 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  gather_S4096x1_S131072x1_S131072x1_1_0_n_n_0_1_11_wf : GatherDims.WF S4096x1 S131072x1 S131072x1 [1] [0] [] [0] [] 1 ![1, 1]
  scatter_S4096x1_S131072x1_S131072x1_1_0_0_1_wf : ScatterDims.WF S4096x1 S131072x1 S131072x1 [1] [0] [0] 1
  scatter_S4096x4096_S131072x2_S131072_n_01_01_1_wf : ScatterDims.WF S4096x4096 S131072x2 S131072 [] [0, 1] [0, 1] 1
  dot_S4096x4096_S4096x4096_S4096x4096_1_0_0_1_n_n_wf : DotDims.WF S4096x4096 S4096x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def gather_S4096x1_S131072x1_S131072x1_1_0_n_n_0_1_11 : GatherDims S4096x1 S131072x1 S131072x1 where
  offsetDims := [1]
  collapsedSliceDims := [0]
  operandBatchingDims := []
  startIndicesBatchingDims := []
  startIndexMap := [0]
  indexVectorDim := 1
  sliceSizes := ![1, 1]
  wf := gather_S4096x1_S131072x1_S131072x1_1_0_n_n_0_1_11_wf
def scatter_S4096x1_S131072x1_S131072x1_1_0_0_1 : ScatterDims S4096x1 S131072x1 S131072x1 where
  updateWindowDims := [1]
  insertedWindowDims := [0]
  scatterDimsToOperandDims := [0]
  indexVectorDim := 1
  wf := scatter_S4096x1_S131072x1_S131072x1_1_0_0_1_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.Carry.lean ====
import proofs.«407440_j80281528697035_2_alg».proof.Proof.Gen.KernelIdeal.Skeleton
import proofs.«407440_j80281528697035_2_alg».proof.Proof.Gen.KernelIdeal.Launch

noncomputable section

namespace Cert.KernelIdeal.Carry

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

section Rec

variable {N : ℕ} (start : Vec F S1024x1024 .f32)
  (step : Vec F S1024x1024 .f32 → Vec F S1024x1024 .bf16 → Vec F S1024x1024 .bf16 → Vec F S1024x1024 .f32)
  (zero : Vec F S1024x1 .f32)
  (fold : Vec F S1024x1024 .f32 → Vec F S1024x1 .f32 → Vec F S1024x1 .bf16 → Vec F S1024x1 .f32)
  (lhs rhs : (n : ℕ) → n < N → Vec F S1024x1024 .bf16) (av : (n : ℕ) → n < N → Vec F S1024x1 .bf16)

def accOf : (n : ℕ) → n < N → Vec F S1024x1024 .f32
  | 0, h => step start (lhs 0 h) (rhs 0 h)
  | n + 1, h =>
    if (n + 1) % 4 = 0 then step start (lhs (n + 1) h) (rhs (n + 1) h)
    else step (accOf n (Nat.lt_of_succ_lt h)) (lhs (n + 1) h) (rhs (n + 1) h)

def vecOf : (n : ℕ) → n < N → Vec F S1024x1 .f32
  | 0, _ => zero
  | n + 1, h =>
    if (n + 1) % 4 = 3 then
      fold (accOf start step lhs rhs (n + 1) h) (if (n + 1) % 16 = 0 then zero else vecOf n (Nat.lt_of_succ_lt h)) (av (n + 1) h)
    else if (n + 1) % 16 = 0 then zero else vecOf n (Nat.lt_of_succ_lt h)

theorem accOf_reset (n : ℕ) (h : n < N) (hn : n % 4 = 0) :
    accOf start step lhs rhs n h = step start (lhs n h) (rhs n h) := by
  cases n with
  | zero => rfl
  | succ n => rw [accOf, if_pos hn]

theorem accOf_step (n n' : ℕ) (h : n < N) (h' : n' < N) (e : n = n' + 1) (hn : n % 4 ≠ 0) :
    accOf start step lhs rhs n h = step (accOf start step lhs rhs n' h') (lhs n h) (rhs n h) := by
  subst e
  rw [accOf, if_neg hn]

theorem vecOf_reset (n : ℕ) (h : n < N) (hn : n % 16 = 0) : vecOf start step zero fold lhs rhs av n h = zero := by
  cases n with
  | zero => rfl
  | succ n => rw [vecOf, if_neg (by omega), if_pos hn]

theorem vecOf_keep (n n' : ℕ) (h : n < N) (h' : n' < N) (e : n = n' + 1) (h4 : n % 4 ≠ 3) (h16 : n % 16 ≠ 0) :
    vecOf start step zero fold lhs rhs av n h = vecOf start step zero fold lhs rhs av n' h' := by
  subst e
  rw [vecOf, if_neg h4, if_neg h16]

theorem vecOf_add (n n' : ℕ) (h : n < N) (h' : n' < N) (e : n = n' + 1) (h4 : n % 4 = 3) :
    vecOf start step zero fold lhs rhs av n h
      = fold (accOf start step lhs rhs n h) (vecOf start step zero fold lhs rhs av n' h') (av n h) := by
  subst e
  rw [vecOf, if_pos h4, if_neg (by omega)]

end Rec

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lhs1 (c : Dev nD) (t : Fin cfg1.N) : Vec F S1024x1024 .bf16 := iblk1 V c 0 t
abbrev rhs1 (c : Dev nD) (t : Fin cfg1.N) : Vec F S1024x1024 .bf16 := iblk1 V c 1 t
abbrev av1 (c : Dev nD) (t : Fin cfg1.N) : Vec F S1024x1 .bf16 := iblk1 V c 2 t
abbrev ar1 (c : Dev nD) (t : Fin cfg1.N) : Vec F S1024x1 .f32 := iblk1 V c 3 t
abbrev sp1 (c : Dev nD) (t : Fin cfg1.N) : Vec F S1024x1 .f32 := iblk1 V c 4 t

def acc1 (c : Dev nD) : (n : ℕ) → n < cfg1.N → Vec F S1024x1024 .f32 :=
  accOf k1_pay1 k1_pay2 (fun n h => lhs1 V c ⟨n, h⟩) (fun n h => rhs1 V c ⟨n, h⟩)

def vec1 (c : Dev nD) : (n : ℕ) → n < cfg1.N → Vec F S1024x1 .f32 :=
  vecOf k1_pay1 k1_pay2 k1_pay3 k1_pay5 (fun n h => lhs1 V c ⟨n, h⟩) (fun n h => rhs1 V c ⟨n, h⟩) (fun n h => av1 V c ⟨n, h⟩)

def ak1 (c : Dev nD) (t : Fin cfg1.N) : Vec F S1024x1024 .bf16 := k1_pay4 (acc1 V c t.val t.isLt)
def step1 (c : Dev nD) (t : Fin cfg1.N) : Vec F S1024x1 .f32 := k1_pay6 (sp1 V c t) (vec1 V c t.val t.isLt)
def node1 (c : Dev nD) (t : Fin cfg1.N) : Vec F S1024x1 .f32 := k1_pay7 (sp1 V c t) (vec1 V c t.val t.isLt) (ar1 V c t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lhs2 (c : Dev nD) (t : Fin cfg2.N) : Vec F S1024x1024 .bf16 := iblk2 V c 0 t
abbrev rhs2 (c : Dev nD) (t : Fin cfg2.N) : Vec F S1024x1024 .bf16 := iblk2 V c 1 t
abbrev av2 (c : Dev nD) (t : Fin cfg2.N) : Vec F S1024x1 .bf16 := iblk2 V c 2 t
abbrev ar2 (c : Dev nD) (t : Fin cfg2.N) : Vec F S1024x1 .f32 := iblk2 V c 3 t
abbrev sp2 (c : Dev nD) (t : Fin cfg2.N) : Vec F S1024x1 .f32 := iblk2 V c 4 t

def acc2 (c : Dev nD) : (n : ℕ) → n < cfg2.N → Vec F S1024x1024 .f32 :=
  accOf k2_pay1 k2_pay2 (fun n h => lhs2 V c ⟨n, h⟩) (fun n h => rhs2 V c ⟨n, h⟩)

def vec2 (c : Dev nD) : (n : ℕ) → n < cfg2.N → Vec F S1024x1 .f32 :=
  vecOf k2_pay1 k2_pay2 k2_pay3 k2_pay4 (fun n h => lhs2 V c ⟨n, h⟩) (fun n h => rhs2 V c ⟨n, h⟩) (fun n h => av2 V c ⟨n, h⟩)

def step2 (c : Dev nD) (t : Fin cfg2.N) : Vec F S1024x1 .f32 := k2_pay5 (sp2 V c t) (vec2 V c t.val t.isLt)
def node2 (c : Dev nD) (t : Fin cfg2.N) : Vec F S1024x1 .f32 := k2_pay6 (sp2 V c t) (vec2 V c t.val t.isLt) (ar2 V c t)

end Cert.KernelIdeal.Carry

end
-- ==== Proof.R0.lean ====
import proofs.«407440_j80281528697035_2_alg».proof.Proof.Gen.KernelIdeal.Skeleton
import proofs.«407440_j80281528697035_2_alg».proof.Proof.Gen.KernelIdeal.Launch
import proofs.«407440_j80281528697035_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rC : Rect S128x1 := Rect.unit (s := S128x1) ![0, 0] S128x1.size inb_S128x1_S128x1_0_0
abbrev rS : Rect S1x1 := Rect.unit (s := S1x1) ![0, 0] S1x1.size inb_S1x1_S1x1_0_0
abbrev rO : Rect S1024x1 := Rect.unit (s := S1024x1) ![0, 0] S1024x1.size inb_S1024x1_S1024x1_0_0

def out0_7 (x0 : Vec F S1024x128 .f32) (x1 : Vec F S128x128 .f32) (x2 : Vec F S1x128 .f32) (x3 : Vec F S128x128 .f32)
    (x4 : Vec F S128x128 .f32) (x5 : Vec F S128x1 .f32) (x6 : Vec F S1x1 .f32) : Vec F S1024x1 .f32 :=
  View.canon [⟨rO, k0_pay1 (View.ld x0 rX) (View.ld x1 rW) (View.ld x2 rB) (View.ld x3 rW) (View.ld x4 rW) (View.ld x5 rC) (View.ld x6 rS)⟩]

theorem cover0_7 (p0 : Vec F S1024x1 .f32) (y : S1024x1.Idx) :
    ∃ pc ∈ ([⟨rO, p0⟩] : List (View.Piece (Elt F) S1024x1 .f32)), y ∈ pc.1.set :=
  View.cover_of_tiled [⟨rO, p0⟩] S1024x1.size (by rfl) y

theorem sound_kernel0 (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S128x1 .f32) (harg6 : arg6.IsWhole)
    (arg7 : Memref sig .tc .vmem S1x1 .f32) (harg7 : arg7.IsWhole) (arg8 : Memref sig .tc .vmem S1024x1 .f32) (harg8 : arg8.IsWhole)
    (x0 : Vec F S1024x128 .f32) (x1 : Vec F S128x128 .f32) (x2 : Vec F S1x128 .f32) (x3 : Vec F S128x128 .f32)
    (x4 : Vec F S128x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; swap; isplitl [H1]; swap; isplitl [H2]; swap; isplitl [H3]; swap
  isplitl [H4]; swap; isplitl [H5]; swap; isplitl [H6]; swap
  · iexists _; isplitr
    swap; · iexact H7
    ipureintro
    exact View.read_writes_eq_canon _ _ _ (cover0_7 _)
  all_goals
    iexists _; isplitr; · ipureintro; rfl
    iassumption

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2, before0_3, before0_4, before0_5, before0_6]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ _ _ _ _ _ _ _ _)
  iframe H0 H1 H2 H3 H4 H5 H6
  isplitl [H7]; · iexists _; iexact H7
  iintro ⟨H0, H1, H2, H3, H4, H5, H6, H7⟩
  iframe

open Idealize.ShloMosaic.ValueIdx

def rowBlock (X : S4096x128.Idx → Elt F .f32) (b : ℕ) (hb : b < 4) : Vec F S1024x128 .f32 :=
  fun y => X (ix2 ⟨1024 * b + (y 0).val, by have := idx2_lt0 y; omega⟩ (y 1))

def mlpArr (c : Dev nD) : S4096x1.Idx → Elt F .f32 := fun i =>
  k0_pay1 (rowBlock (V c main_arg0) ((i 0).val / 1024) (by have := idx2_lt0 i; omega))
    (V c main_v0) (V c main_v4) (V c main_v1) (V c main_v2) (V c main_v3) (V c main_v5)
    (ix2 ⟨(i 0).val % 1024, Nat.mod_lt _ (by decide)⟩ (0 : Fin 1))

theorem mlpArr_apply (c : Dev nD) (b : ℕ) (hb : b < 4) (j : S1024x1.Idx) (i : S4096x1.Idx) (hi : (i 0).val = 1024 * b + (j 0).val) :
    mlpArr V c i = k0_pay1 (rowBlock (V c main_arg0) b hb) (V c main_v0) (V c main_v4) (V c main_v1) (V c main_v2) (V c main_v3) (V c main_v5) j := by
  have hj : (j 0).val < 1024 := idx2_lt0 j
  have hq : (i 0).val / 1024 = b := by omega
  have hr : (i 0).val % 1024 = (j 0).val := by omega
  subst hq
  have e1 : (ix2 ⟨(i 0).val % 1024, Nat.mod_lt _ (by decide)⟩ (0 : Fin 1) : S1024x1.Idx) = j :=
    Shape.idx_ext₂ hr (by show 0 = (j 1).val; have := idx2_lt1 j; omega)
  unfold mlpArr
  rw [e1]

theorem hz : (![0, 0] : Fin 2 → Nat) = fun _ => 0 := funext fun a => by fin_cases a <;> rfl

theorem idxIn : ∀ w : Fin cfg0.W, w ≠ 0 → w ≠ 7 → ∀ (t : Fin grid0.N) (a : Fin (cfg0.win w).shape.rank), (cfg0.win w).index t a = 0 := by
  decide +kernel

theorem idxRow : ∀ t : Fin grid0.N, (win0_0.index t (0 : Fin 2) = t.val ∧ win0_0.index t (1 : Fin 2) = 0)
    ∧ win0_7.index t (0 : Fin 2) = t.val ∧ win0_7.index t (1 : Fin 2) = 0 := by
  decide +kernel

theorem emb0 (w : Fin cfg0.W) (h0 : w ≠ 0) (h7 : w ≠ 7) (t : Fin cfg0.N) (y : ((cfg0.win w).xblock (cfg0.grid.coords t)).Idx)
    (a : Fin (cfg0.win w).shape.rank) : (((cfg0.win w).rect t).emb y a : ℕ) = y a :=
  (cfg0.win w).rect_emb_val_of_index_zero t a (idxIn w h0 h7 t a) y

theorem iblk0_0_eq (c : Dev nD) (t : Fin cfg0.N) (ht : t.val < 4) : (iblk0 V c 0 t : Vec F S1024x128 .f32) = rowBlock (V c main_arg0) t.val ht := by
  obtain ⟨⟨e0, e1⟩, -⟩ := idxRow t
  funext y
  refine congrArg (V c main_arg0) (Shape.idx_ext₂ ((win0_0.rect_emb_val t y 0).trans ?_) (win0_0.rect_emb_val_of_index_zero t 1 e1 y))
  rw [e0]; show t.val * 1024 + (y 0).val = 1024 * t.val + (y 0).val; omega

theorem iblk0_1_eq (c : Dev nD) (t : Fin cfg0.N) : (iblk0 V c 1 t : Vec F S128x128 .f32) = V c main_v0 :=
  funext fun y => congrArg (V c main_v0) (funext fun a => Fin.ext (emb0 1 (by decide) (by decide) t y a))

theorem iblk0_2_eq (c : Dev nD) (t : Fin cfg0.N) : (iblk0 V c 2 t : Vec F S1x128 .f32) = V c main_v4 :=
  funext fun y => congrArg (V c main_v4) (funext fun a => Fin.ext (emb0 2 (by decide) (by decide) t y a))

theorem iblk0_3_eq (c : Dev nD) (t : Fin cfg0.N) : (iblk0 V c 3 t : Vec F S128x128 .f32) = V c main_v1 :=
  funext fun y => congrArg (V c main_v1) (funext fun a => Fin.ext (emb0 3 (by decide) (by decide) t y a))

theorem iblk0_4_eq (c : Dev nD) (t : Fin cfg0.N) : (iblk0 V c 4 t : Vec F S128x128 .f32) = V c main_v2 :=
  funext fun y => congrArg (V c main_v2) (funext fun a => Fin.ext (emb0 4 (by decide) (by decide) t y a))

theorem iblk0_5_eq (c : Dev nD) (t : Fin cfg0.N) : (iblk0 V c 5 t : Vec F S128x1 .f32) = V c main_v3 :=
  funext fun y => congrArg (V c main_v3) (funext fun a => Fin.ext (emb0 5 (by decide) (by decide) t y a))

theorem iblk0_6_eq (c : Dev nD) (t : Fin cfg0.N) : (iblk0 V c 6 t : Vec F S1x1 .f32) = V c main_v5 :=
  funext fun y => congrArg (V c main_v5) (funext fun a => Fin.ext (emb0 6 (by decide) (by decide) t y a))

theorem flushed0_7_eq (c : Dev nD) (t : Fin cfg0.N) :
    (dat0 V c).flushed 7 t = ((cfg0.win 7).blk t).view.read (Elt F) (mlpArr V c) := by
  have ht : t.val < 4 := lt_of_lt_of_eq t.isLt N_0
  show (cfg0.win 7).cut (grid0.coords t) ((dat0 V c).after 7 t) = _
  dsimp only [dat0]
  unfold out0_7
  rw [View.canon_unit_zero hz]
  simp only [View.ld_unit_zero (S := S1024x128) hz, View.ld_unit_zero (S := S128x128) hz, View.ld_unit_zero (S := S1x128) hz,
    View.ld_unit_zero (S := S128x1) hz, View.ld_unit_zero (S := S1x1) hz]
  rw [iblk0_0_eq V c t ht, iblk0_1_eq, iblk0_2_eq, iblk0_3_eq, iblk0_4_eq, iblk0_5_eq, iblk0_6_eq]
  obtain ⟨-, e0, e1⟩ := idxRow t
  funext j
  show _ = mlpArr V c (((cfg0.win 7).blk t).view.emb j)
  refine (mlpArr_apply V c t.val ht j _ ?_).symm
  show win0_7.index t (0 : Fin 2) * 1024 + 1 * (j 0).val = 1024 * t.val + (j 0).val
  rw [e0]; omega

theorem cover7 (i : S4096x1.Idx) : ∃ t : Fin cfg0.N, (cfg0.win 7).flush t = true ∧ i ∈ ((cfg0.win 7).blk t).view.set := by
  have hi0 : (i 0).val < 4096 := idx2_lt0 i
  have hi1 : (i 1).val < 1 := idx2_lt1 i
  have ht : (i 0).val / 1024 < cfg0.N := lt_of_lt_of_eq (show (i 0).val / 1024 < 4 by omega) N_0.symm
  obtain ⟨-, e0, e1⟩ := idxRow ⟨_, ht⟩
  refine ⟨⟨_, ht⟩, flush0_7 _, ?_⟩
  show i ∈ ((View.whole main_v6).slice (win0_7.rect ⟨_, ht⟩)).set
  rw [View.set_slice_whole, Rect.mem_set_unit]
  intro a
  match a with
  | ⟨0, _⟩ =>
    show win0_7.index _ (0 : Fin 2) * 1024 ≤ (i 0).val ∧ (i 0).val < win0_7.index _ (0 : Fin 2) * 1024 + 1024
    rw [e0]; show (i 0).val / 1024 * 1024 ≤ (i 0).val ∧ (i 0).val < (i 0).val / 1024 * 1024 + 1024; omega
  | ⟨1, _⟩ =>
    show win0_7.index _ (1 : Fin 2) * 1 ≤ (i 1).val ∧ (i 1).val < win0_7.index _ (1 : Fin 2) * 1 + 1
    rw [e1]; omega

theorem arrAt0_7 (c : Dev nD) : (dat0 V c).arrAt 7 cfg0.N = mlpArr V c :=
  (dat0 V c).arrAt_eq_of_cover 7 (mlpArr V c) (fun t _ => flushed0_7_eq V c t) cover7

end Cert.KernelIdeal.R0

end
-- ==== Proof.R1.lean ====
import proofs.«407440_j80281528697035_2_alg».proof.Proof.Carry
import proofs.«407440_j80281528697035_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0 (i : grid1.Coords) : Prop :=
  (Scalar.cmpi .ne (Scalar.extui (Scalar.cmpi .eq (BitVec.ofNat 32 (i 2).val) 0#32) : BitVec 32) 0#32) = 1#1

abbrev cond1 (i : grid1.Coords) : Prop :=
  (Scalar.cmpi .ne (Scalar.extui (Scalar.andi (Scalar.cmpi .eq (BitVec.ofNat 32 (i 1).val) 0#32) (Scalar.cmpi .eq (BitVec.ofNat 32 (i 2).val) 0#32)) : BitVec 32) 0#32) = 1#1

abbrev cond2 (i : grid1.Coords) : Prop := k1_cond3 i = 1#1

abbrev cond3 (i : grid1.Coords) : Prop := k1_cond4 i = 1#1

theorem hcond0 : ∀ t : Fin grid1.N, cond0 (grid1.coords t) ↔ t.val % 4 = 0 := by decide +kernel
theorem hcond1 : ∀ t : Fin grid1.N, cond1 (grid1.coords t) ↔ t.val % 16 = 0 := by decide +kernel
theorem hcond2 : ∀ t : Fin grid1.N, cond2 (grid1.coords t) ↔ t.val % 4 = 3 := by decide +kernel
theorem hcond3 : ∀ t : Fin grid1.N, cond3 (grid1.coords t) ↔ t.val % 16 = 15 := by decide +kernel

theorem idle5 : ∀ t : Fin cfg1.N, ¬t.val % 4 = 3 → cfg1.idle 5 (grid1.coords t) = true := by decide +kernel
theorem live5 : ∀ t : Fin cfg1.N, t.val % 4 = 3 → cfg1.idle 5 (grid1.coords t) = false := by decide +kernel
theorem idle6 : ∀ t : Fin cfg1.N, ¬t.val % 16 = 15 → cfg1.idle 6 (grid1.coords t) = true := by decide +kernel
theorem live6 : ∀ t : Fin cfg1.N, t.val % 16 = 15 → cfg1.idle 6 (grid1.coords t) = false := by decide +kernel
theorem idle7 : ∀ t : Fin cfg1.N, ¬t.val % 16 = 15 → cfg1.idle 7 (grid1.coords t) = true := by decide +kernel
theorem live7 : ∀ t : Fin cfg1.N, t.val % 16 = 15 → cfg1.idle 7 (grid1.coords t) = false := by decide +kernel

abbrev ms0 (t : Fin cfg1.N) : Memref sig .tc .vmem S1024x1024 .bf16 := win1_0.stage (cfg1.slots t 0)
abbrev ms1 (t : Fin cfg1.N) : Memref sig .tc .vmem S1024x1024 .bf16 := win1_1.stage (cfg1.slots t 1)
abbrev ms2 (t : Fin cfg1.N) : Memref sig .tc .vmem S1024x1 .bf16 := win1_2.stage (cfg1.slots t 2)
abbrev ms3 (t : Fin cfg1.N) : Memref sig .tc .vmem S1024x1 .f32 := win1_3.stage (cfg1.slots t 3)
abbrev ms4 (t : Fin cfg1.N) : Memref sig .tc .vmem S1024x1 .f32 := win1_4.stage (cfg1.slots t 4)
abbrev ms5 (t : Fin cfg1.N) : Memref sig .tc .vmem S1024x1024 .bf16 := win1_5.stage (cfg1.slots t 5)
abbrev ms6 (t : Fin cfg1.N) : Memref sig .tc .vmem S1024x1 .f32 := win1_6.stage (cfg1.slots t 6)
abbrev ms7 (t : Fin cfg1.N) : Memref sig .tc .vmem S1024x1 .f32 := win1_7.stage (cfg1.slots t 7)

abbrev scA : Memref sig .tc .vmem S1024x1024 .f32 := Memref.whole cc1_scratch0
abbrev scV : Memref sig .tc .vmem S1024x1 .f32 := Memref.whole cc1_scratch1

abbrev restBut (c : Dev nD) : sProp 𝕄 :=
  Pipeline.scopedRestBut (Ix := Unit) (Name := ℕ) (U := UR sig nD τ) (Lvl := ℕ) (Val := Elt F) spec1 c [cc1_scratch0, cc1_scratch1]

theorem PhiA_eq (c : Dev nD) :
    (Pipeline.ΦA spec1 c : sProp 𝕄)
      = iprop(iprop(iprop((∃ d, owns (c : Thread nD τ) scA fullShare d) ∗ (∃ d, owns (c : Thread nD τ) scV fullShare d)) ∗ restBut c) ∗ (∃ r, prngReg c r)) := by
  unfold Pipeline.ΦA; rw [scopedRest1_split]; simp only [scA, scV, restBut, owns_whole]; try rfl

def PhiS (c : Dev nD) : (n : ℕ) → n ≤ cfg1.N → sProp 𝕄
  | 0, _ => Pipeline.ΦA spec1 c
  | n + 1, hn => iprop(owns (c : Thread nD τ) scA fullShare (Carry.acc1 V c n hn) ∗ owns (c : Thread nD τ) scV fullShare (Carry.vec1 V c n hn)
      ∗ restBut c ∗ (∃ r, prngReg c r))

theorem PhiS_succ (c : Dev nD) (n : ℕ) (hn : n < cfg1.N) :
    PhiS V c (n + 1) hn = iprop(owns (c : Thread nD τ) scA fullShare (Carry.acc1 V c n hn) ∗ owns (c : Thread nD τ) scV fullShare (Carry.vec1 V c n hn)
      ∗ restBut c ∗ (∃ r, prngReg c r)) := rfl

theorem PhiS_pos (c : Dev nD) (n : ℕ) (h : n ≤ cfg1.N) (hz : n ≠ 0) :
    PhiS V c n h = iprop(owns (c : Thread nD τ) scA fullShare (Carry.acc1 V c (n - 1) (by omega)) ∗ owns (c : Thread nD τ) scV fullShare (Carry.vec1 V c (n - 1) (by omega))
      ∗ restBut c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => Carry.iblk1 V c 0 t
    | ⟨1, _⟩ => Carry.iblk1 V c 1 t
    | ⟨2, _⟩ => Carry.iblk1 V c 2 t
    | ⟨3, _⟩ => Carry.iblk1 V c 3 t
    | ⟨4, _⟩ => Carry.iblk1 V c 4 t
    | ⟨5, _⟩ => Carry.ak1 V c t
    | ⟨6, _⟩ => Carry.node1 V c t
    | ⟨7, _⟩ => Carry.step1 V c t
    | ⟨_ + 8, h⟩ => absurd h (Nat.not_lt.2 (Nat.le_add_left _ _))
  Φ t := PhiS V c t.val (Nat.le_of_lt_succ t.isLt)
  q w := if w.val = 0 then fullShare.left else if w.val = 1 then fullShare.right else fullShare
  owed _ := 0

theorem A_eq1 (c : Dev nD) (w : Fin cfg1.W) : (dat1 V c).A w = V c (Pipeline.arrRef spec1 w) := by
  dsimp only [dat1]

theorem Phi1_zero (c : Dev nD) : (dat1 V c).Φ 0 = Pipeline.ΦA spec1 c := rfl

theorem after1_5 (c : Dev nD) (t : Fin cfg1.N) (h : t.val % 4 = 3) : (dat1 V c).after 5 t = Carry.ak1 V c t := by dsimp only [dat1]
theorem after1_6 (c : Dev nD) (t : Fin cfg1.N) (h : t.val % 16 = 15) : (dat1 V c).after 6 t = Carry.node1 V c t := by dsimp only [dat1]
theorem after1_7 (c : Dev nD) (t : Fin cfg1.N) (h : t.val % 16 = 15) : (dat1 V c).after 7 t = Carry.step1 V c t := by dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem before0 (c : Dev nD) (t : Fin cfg1.N) (d) : (dat1 V c).before 0 t d = Carry.iblk1 V c 0 t :=
  (dat1 V c).before_in_eq_fetched 0 rfl (fun _ => rfl) (fun _ _ _ => rfl) (fun _ => rfl) t d
theorem before1 (c : Dev nD) (t : Fin cfg1.N) (d) : (dat1 V c).before 1 t d = Carry.iblk1 V c 1 t :=
  (dat1 V c).before_in_eq_fetched 1 rfl (fun _ => rfl) (fun _ _ _ => rfl) (fun _ => rfl) t d
theorem before2 (c : Dev nD) (t : Fin cfg1.N) (d) : (dat1 V c).before 2 t d = Carry.iblk1 V c 2 t :=
  (dat1 V c).before_in_eq_fetched 2 rfl (fun _ => rfl) (fun _ _ _ => rfl) (fun _ => rfl) t d
theorem before3 (c : Dev nD) (t : Fin cfg1.N) (d) : (dat1 V c).before 3 t d = Carry.iblk1 V c 3 t :=
  (dat1 V c).before_in_eq_fetched 3 rfl (fun _ => rfl) (fun _ _ _ => rfl) (fun _ => rfl) t d
theorem before4 (c : Dev nD) (t : Fin cfg1.N) (d) : (dat1 V c).before 4 t d = Carry.iblk1 V c 4 t :=
  (dat1 V c).before_in_eq_fetched 4 rfl (fun _ => rfl) (fun _ _ _ => rfl) (fun _ => rfl) t d

theorem hz2 : (![0, 0] : Fin 2 → ℕ) = fun _ => 0 := by funext a; fin_cases a <;> rfl

section Bridge
variable {S : Shape} {e : EltTy}

theorem read_last_whole {κ : Kind} {sp : Space} (v : View sig κ sp S e) (f : v.ty.Contents (Elt F)) {off : Fin S.rank → ℕ}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

end Bridge

def held (c : Dev nD)
    (arg3 arg4 : Memref sig .tc .vmem S1024x1024 .bf16) (arg5 : Memref sig .tc .vmem S1024x1 .bf16) (arg6 arg7 : Memref sig .tc .vmem S1024x1 .f32)
    (arg8 : Memref sig .tc .vmem S1024x1024 .bf16) (arg9 arg10 : Memref sig .tc .vmem S1024x1 .f32)
    (arg11 : Memref sig .tc .vmem S1024x1024 .f32) (arg12 : Memref sig .tc .vmem S1024x1 .f32)
    (x0 x1 : Vec F S1024x1024 .bf16) (x2 : Vec F S1024x1 .bf16) (x3 x4 : Vec F S1024x1 .f32)
    (d5 : Vec F S1024x1024 .bf16) (d6 d7 : Vec F S1024x1 .f32) (s0 : Vec F S1024x1024 .f32) (s1 : Vec F S1024x1 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4
    ∗ owns (c : Thread nD τ) arg8 fullShare d5 ∗ owns (c : Thread nD τ) arg9 fullShare d6 ∗ owns (c : Thread nD τ) arg10 fullShare d7
    ∗ owns (c : Thread nD τ) arg11 fullShare s0 ∗ owns (c : Thread nD τ) arg12 fullShare s1)

theorem owns_unread (c : Dev nD) {sh : Shape} {e : EltTy} {m : Memref sig .tc .vmem sh e} (h : m.IsWhole) (x : Vec F sh e) :
    (owns (c : Thread nD τ) m fullShare x : sProp 𝕄) = (m.view.loc (c : Thread nD τ) ↦[m.view.set]{fullShare} h.unread x) := by
  have h₁ : owns (c : Thread nD τ) m fullShare x ⊢ (m.view.loc (c : Thread nD τ) ↦[m.view.set]{fullShare} h.unread x : sProp 𝕄) := by
    unfold owns; iintro ⟨%f, %hf, H⟩; obtain rfl := h.eq_unread hf; iexact H
  have h₂ : (m.view.loc (c : Thread nD τ) ↦[m.view.set]{fullShare} h.unread x : sProp 𝕄) ⊢ owns (c : Thread nD τ) m fullShare x := by
    unfold owns; iintro H; iexists _; isplitr; swap; · iexact H
    ipureintro; exact h.read_unread x
  exact BI.equiv_iff.mp ⟨h₁, h₂⟩

section Run
variable (c : Dev nD) (i : grid1.Coords)
  (arg3 : Memref sig .tc .vmem S1024x1024 .bf16) (harg3 : arg3.IsWhole) (arg4 : Memref sig .tc .vmem S1024x1024 .bf16) (harg4 : arg4.IsWhole)
  (arg5 : Memref sig .tc .vmem S1024x1 .bf16) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x1024 .bf16) (harg8 : arg8.IsWhole)
  (arg9 : Memref sig .tc .vmem S1024x1 .f32) (harg9 : arg9.IsWhole) (arg10 : Memref sig .tc .vmem S1024x1 .f32) (harg10 : arg10.IsWhole)
  (arg11 : Memref sig .tc .vmem S1024x1024 .f32) (harg11 : arg11.IsWhole) (arg12 : Memref sig .tc .vmem S1024x1 .f32) (harg12 : arg12.IsWhole)
  (x0 x1 : Vec F S1024x1024 .bf16) (x2 : Vec F S1024x1 .bf16) (x3 x4 : Vec F S1024x1 .f32)
  (d5 : Vec F S1024x1024 .bf16) (d6 d7 : Vec F S1024x1 .f32) (s0 : Vec F S1024x1024 .f32) (s1 : Vec F S1024x1 .f32)

theorem runA (E : Set ℕ) (K : PUnit → sProp 𝕄) (hc0 : cond0 i) (hc1 : cond1 i) (hc2 : ¬cond2 i) (hc3 : ¬cond3 i) :
    iprop(held c arg3 arg4 arg5 arg6 arg7 arg8 arg9 arg10 arg11 arg12 x0 x1 x2 x3 x4 d5 d6 d7 s0 s1
        ∗ (held c arg3 arg4 arg5 arg6 arg7 arg8 arg9 arg10 arg11 arg12 x0 x1 x2 x3 x4 d5 d6 d7 (k1_pay2 k1_pay1 x0 x1) k1_pay3 -∗ K ⟨⟩))
      ⊢ wp frame (wpE (defs₀ (F := F)) Variants.none c none) E
          (cc1_kernel i arg3 harg3 arg4 harg4 arg5 harg5 arg6 harg6 arg7 harg7 arg8 harg8 arg9 harg9 arg10 harg10 arg11 harg11 arg12 harg12) K := by
  unfold held
  simp only [owns_unread c harg3, owns_unread c harg4, owns_unread c harg5, owns_unread c harg6, owns_unread c harg7, owns_unread c harg8,
    owns_unread c harg9, owns_unread c harg10, owns_unread c harg11, owns_unread c harg12]
  simp only [cc1_kernel_eq_skeleton]; unfold cc1_kernel_skel
  iintro ⟨⟨H0, H1, H2, H3, H4, H5, H6, H7, HS0, HS1⟩, Hk⟩
  sl_exec (disch := first | exact hc0 | exact hc1 | exact hc2 | exact hc3)
  sl_step
  iapply Hk
  iframe H0 H1 H2 H3 H4 H5 H6 H7
  rw [← owns_unread c harg11, ← owns_unread c harg12]; unfold owns
  (try sl_unfold_words)
  simp only [View.readAt_eq_ld, Memref.IsWhole.read_unread, View.readCov_unit_zero (S := S1024x1024) _ hz2, View.readCov_unit_zero (S := S1024x1) _ hz2,
    View.ld_unit_zero (S := S1024x1024) hz2, View.ld_unit_zero (S := S1024x1) hz2]
  isplitl [HS0]
  · iexists _; isplitr; swap; · iexact HS0
    ipureintro; exact read_last_whole _ _ hz2 _ _ _
  · iexists _; isplitr; swap; · iexact HS1
    ipureintro; exact read_last_whole _ _ hz2 _ _ _

theorem runB (E : Set ℕ) (K : PUnit → sProp 𝕄) (hc0 : cond0 i) (hc1 : ¬cond1 i) (hc2 : ¬cond2 i) (hc3 : ¬cond3 i) :
    iprop(held c arg3 arg4 arg5 arg6 arg7 arg8 arg9 arg10 arg11 arg12 x0 x1 x2 x3 x4 d5 d6 d7 s0 s1
        ∗ (held c arg3 arg4 arg5 arg6 arg7 arg8 arg9 arg10 arg11 arg12 x0 x1 x2 x3 x4 d5 d6 d7 (k1_pay2 k1_pay1 x0 x1) s1 -∗ K ⟨⟩))
      ⊢ wp frame (wpE (defs₀ (F := F)) Variants.none c none) E
          (cc1_kernel i arg3 harg3 arg4 harg4 arg5 harg5 arg6 harg6 arg7 harg7 arg8 harg8 arg9 harg9 arg10 harg10 arg11 harg11 arg12 harg12) K := by
  unfold held
  simp only [owns_unread c harg3, owns_unread c harg4, owns_unread c harg5, owns_unread c harg6, owns_unread c harg7, owns_unread c harg8,
    owns_unread c harg9, owns_unread c harg10, owns_unread c harg11, owns_unread c harg12]
  simp only [cc1_kernel_eq_skeleton]; unfold cc1_kernel_skel
  iintro ⟨⟨H0, H1, H2, H3, H4, H5, H6, H7, HS0, HS1⟩, Hk⟩
  sl_exec (disch := first | exact hc0 | exact hc1 | exact hc2 | exact hc3)
  sl_step
  iapply Hk
  iframe H0 H1 H2 H3 H4 H5 H6 H7 HS1
  rw [← owns_unread c harg11]; unfold owns
  (try sl_unfold_words)
  simp only [View.readAt_eq_ld, Memref.IsWhole.read_unread, View.readCov_unit_zero (S := S1024x1024) _ hz2, View.readCov_unit_zero (S := S1024x1) _ hz2,
    View.ld_unit_zero (S := S1024x1024) hz2, View.ld_unit_zero (S := S1024x1) hz2]
  iexists _; isplitr; swap; · iexact HS0
  ipureintro; exact read_last_whole _ _ hz2 _ _ _

theorem runC (E : Set ℕ) (K : PUnit → sProp 𝕄) (hc0 : ¬cond0 i) (hc1 : ¬cond1 i) (hc2 : ¬cond2 i) (hc3 : ¬cond3 i) :
    iprop(held c arg3 arg4 arg5 arg6 arg7 arg8 arg9 arg10 arg11 arg12 x0 x1 x2 x3 x4 d5 d6 d7 s0 s1
        ∗ (held c arg3 arg4 arg5 arg6 arg7 arg8 arg9 arg10 arg11 arg12 x0 x1 x2 x3 x4 d5 d6 d7 (k1_pay2 s0 x0 x1) s1 -∗ K ⟨⟩))
      ⊢ wp frame (wpE (defs₀ (F := F)) Variants.none c none) E
          (cc1_kernel i arg3 harg3 arg4 harg4 arg5 harg5 arg6 harg6 arg7 harg7 arg8 harg8 arg9 harg9 arg10 harg10 arg11 harg11 arg12 harg12) K := by
  unfold held
  simp only [owns_unread c harg3, owns_unread c harg4, owns_unread c harg5, owns_unread c harg6, owns_unread c harg7, owns_unread c harg8,
    owns_unread c harg9, owns_unread c harg10, owns_unread c harg11, owns_unread c harg12]
  simp only [cc1_kernel_eq_skeleton]; unfold cc1_kernel_skel
  iintro ⟨⟨H0, H1, H2, H3, H4, H5, H6, H7, HS0, HS1⟩, Hk⟩
  sl_exec (disch := first | exact hc0 | exact hc1 | exact hc2 | exact hc3)
  sl_step
  iapply Hk
  iframe H0 H1 H2 H3 H4 H5 H6 H7 HS1
  rw [← owns_unread c harg11]; unfold owns
  (try sl_unfold_words)
  simp only [View.readAt_eq_ld, Memref.IsWhole.read_unread, View.readCov_unit_zero (S := S1024x1024) _ hz2, View.readCov_unit_zero (S := S1024x1) _ hz2,
    View.ld_unit_zero (S := S1024x1024) hz2, View.ld_unit_zero (S := S1024x1) hz2]
  iexists _; isplitr; swap; · iexact HS0
  ipureintro; exact read_last_whole _ _ hz2 _ _ _

theorem runD (E : Set ℕ) (K : PUnit → sProp 𝕄) (hc0 : ¬cond0 i) (hc1 : ¬cond1 i) (hc2 : cond2 i) (hc3 : ¬cond3 i) :
    iprop(held c arg3 arg4 arg5 arg6 arg7 arg8 arg9 arg10 arg11 arg12 x0 x1 x2 x3 x4 d5 d6 d7 s0 s1
        ∗ (held c arg3 arg4 arg5 arg6 arg7 arg8 arg9 arg10 arg11 arg12 x0 x1 x2 x3 x4 (k1_pay4 (k1_pay2 s0 x0 x1)) d6 d7 (k1_pay2 s0 x0 x1) (k1_pay5 (k1_pay2 s0 x0 x1) s1 x2) -∗ K ⟨⟩))
      ⊢ wp frame (wpE (defs₀ (F := F)) Variants.none c none) E
          (cc1_kernel i arg3 harg3 arg4 harg4 arg5 harg5 arg6 harg6 arg7 harg7 arg8 harg8 arg9 harg9 arg10 harg10 arg11 harg11 arg12 harg12) K := by
  unfold held
  simp only [owns_unread c harg3, owns_unread c harg4, owns_unread c harg5, owns_unread c harg6, owns_unread c harg7, owns_unread c harg8,
    owns_unread c harg9, owns_unread c harg10, owns_unread c harg11, owns_unread c harg12]
  simp only [cc1_kernel_eq_skeleton]; unfold cc1_kernel_skel
  iintro ⟨⟨H0, H1, H2, H3, H4, H5, H6, H7, HS0, HS1⟩, Hk⟩
  sl_exec (disch := first | exact hc0 | exact hc1 | exact hc2 | exact hc3)
  sl_step
  iapply Hk
  iframe H0 H1 H2 H3 H4 H6 H7
  rw [← owns_unread c harg8, ← owns_unread c harg11, ← owns_unread c harg12]; unfold owns
  (try sl_unfold_words)
  simp only [View.readAt_eq_ld, Memref.IsWhole.read_unread, View.readCov_unit_zero (S := S1024x1024) _ hz2, View.readCov_unit_zero (S := S1024x1) _ hz2,
    View.ld_unit_zero (S := S1024x1024) hz2, View.ld_unit_zero (S := S1024x1) hz2]
  isplitl [H5]
  · iexists _; isplitr; swap; · iexact H5
    ipureintro; exact read_last_whole _ _ hz2 _ _ _
  isplitl [HS0]
  · iexists _; isplitr; swap; · iexact HS0
    ipureintro; exact read_last_whole _ _ hz2 _ _ _
  · iexists _; isplitr; swap; · iexact HS1
    ipureintro; exact read_last_whole _ _ hz2 _ _ _

theorem runE (E : Set ℕ) (K : PUnit → sProp 𝕄) (hc0 : ¬cond0 i) (hc1 : ¬cond1 i) (hc2 : cond2 i) (hc3 : cond3 i) :
    iprop(held c arg3 arg4 arg5 arg6 arg7 arg8 arg9 arg10 arg11 arg12 x0 x1 x2 x3 x4 d5 d6 d7 s0 s1
        ∗ (held c arg3 arg4 arg5 arg6 arg7 arg8 arg9 arg10 arg11 arg12 x0 x1 x2 x3 x4 (k1_pay4 (k1_pay2 s0 x0 x1)) (k1_pay7 x4 (k1_pay5 (k1_pay2 s0 x0 x1) s1 x2) x3) (k1_pay6 x4 (k1_pay5 (k1_pay2 s0 x0 x1) s1 x2)) (k1_pay2 s0 x0 x1) (k1_pay5 (k1_pay2 s0 x0 x1) s1 x2) -∗ K ⟨⟩))
      ⊢ wp frame (wpE (defs₀ (F := F)) Variants.none c none) E
          (cc1_kernel i arg3 harg3 arg4 harg4 arg5 harg5 arg6 harg6 arg7 harg7 arg8 harg8 arg9 harg9 arg10 harg10 arg11 harg11 arg12 harg12) K := by
  unfold held
  simp only [owns_unread c harg3, owns_unread c harg4, owns_unread c harg5, owns_unread c harg6, owns_unread c harg7, owns_unread c harg8,
    owns_unread c harg9, owns_unread c harg10, owns_unread c harg11, owns_unread c harg12]
  simp only [cc1_kernel_eq_skeleton]; unfold cc1_kernel_skel
  iintro ⟨⟨H0, H1, H2, H3, H4, H5, H6, H7, HS0, HS1⟩, Hk⟩
  sl_exec (disch := first | exact hc0 | exact hc1 | exact hc2 | exact hc3)
  sl_step
  iapply Hk
  iframe H0 H1 H2 H3 H4
  rw [← owns_unread c harg8, ← owns_unread c harg9, ← owns_unread c harg10, ← owns_unread c harg11, ← owns_unread c harg12]; unfold owns
  (try sl_unfold_words)
  simp only [View.readAt_eq_ld, Memref.IsWhole.read_unread, View.readCov_unit_zero (S := S1024x1024) _ hz2, View.readCov_unit_zero (S := S1024x1) _ hz2,
    View.ld_unit_zero (S := S1024x1024) hz2, View.ld_unit_zero (S := S1024x1) hz2]
  isplitl [H5]
  · iexists _; isplitr; swap; · iexact H5
    ipureintro; exact read_last_whole _ _ hz2 _ _ _
  isplitl [H6]
  · iexists _; isplitr; swap; · iexact H6
    ipureintro; exact read_last_whole _ _ hz2 _ _ _
  isplitl [H7]
  · iexists _; isplitr; swap; · iexact H7
    ipureintro; exact read_last_whole _ _ hz2 _ _ _
  isplitl [HS0]
  · iexists _; isplitr; swap; · iexact HS0
    ipureintro; exact read_last_whole _ _ hz2 _ _ _
  · iexists _; isplitr; swap; · iexact HS1
    ipureintro; exact read_last_whole _ _ hz2 _ _ _

end Run

theorem acc1_reset (c : Dev nD) (t : Fin cfg1.N) (h : t.val % 4 = 0) :
    Carry.acc1 V c t.val t.isLt = k1_pay2 k1_pay1 (Carry.lhs1 V c t) (Carry.rhs1 V c t) :=
  Carry.accOf_reset k1_pay1 k1_pay2 _ _ t.val t.isLt h

theorem acc1_step (c : Dev nD) (t : Fin cfg1.N) (h : ¬t.val % 4 = 0) :
    Carry.acc1 V c t.val t.isLt
      = k1_pay2 (Carry.acc1 V c (t.val - 1) (Nat.lt_of_le_of_lt (Nat.sub_le _ _) t.isLt)) (Carry.lhs1 V c t) (Carry.rhs1 V c t) :=
  Carry.accOf_step k1_pay1 k1_pay2 _ _ t.val (t.val - 1) t.isLt _ (by omega) h

theorem vec1_reset (c : Dev nD) (t : Fin cfg1.N) (h : t.val % 16 = 0) : Carry.vec1 V c t.val t.isLt = k1_pay3 :=
  Carry.vecOf_reset k1_pay1 k1_pay2 k1_pay3 k1_pay5 _ _ _ t.val t.isLt h

theorem vec1_keep (c : Dev nD) (t : Fin cfg1.N) (h16 : ¬t.val % 16 = 0) (h3 : ¬t.val % 4 = 3) :
    Carry.vec1 V c t.val t.isLt = Carry.vec1 V c (t.val - 1) (Nat.lt_of_le_of_lt (Nat.sub_le _ _) t.isLt) :=
  Carry.vecOf_keep k1_pay1 k1_pay2 k1_pay3 k1_pay5 _ _ _ t.val (t.val - 1) t.isLt _ (by omega) h3 h16

theorem vec1_mul (c : Dev nD) (t : Fin cfg1.N) (h3 : t.val % 4 = 3) :
    Carry.vec1 V c t.val t.isLt
      = k1_pay5 (Carry.acc1 V c t.val t.isLt) (Carry.vec1 V c (t.val - 1) (Nat.lt_of_le_of_lt (Nat.sub_le _ _) t.isLt)) (Carry.av1 V c t) :=
  Carry.vecOf_add k1_pay1 k1_pay2 k1_pay3 k1_pay5 _ _ _ t.val (t.val - 1) t.isLt _ (by omega) h3

theorem leaves0 (c : Dev nD) (t : Fin cfg1.N) : (dat1 V c).leavesExact 0 t = owns (c : Thread nD τ) (ms0 t) fullShare (Carry.lhs1 V c t) := rfl
theorem leaves1 (c : Dev nD) (t : Fin cfg1.N) : (dat1 V c).leavesExact 1 t = owns (c : Thread nD τ) (ms1 t) fullShare (Carry.rhs1 V c t) := rfl
theorem leaves2 (c : Dev nD) (t : Fin cfg1.N) : (dat1 V c).leavesExact 2 t = owns (c : Thread nD τ) (ms2 t) fullShare (Carry.av1 V c t) := rfl
theorem leaves3 (c : Dev nD) (t : Fin cfg1.N) : (dat1 V c).leavesExact 3 t = owns (c : Thread nD τ) (ms3 t) fullShare (Carry.ar1 V c t) := rfl
theorem leaves4 (c : Dev nD) (t : Fin cfg1.N) : (dat1 V c).leavesExact 4 t = owns (c : Thread nD τ) (ms4 t) fullShare (Carry.sp1 V c t) := rfl

theorem PhiS_forget (c : Dev nD) (n : ℕ) (h : n ≤ cfg1.N) : PhiS V c n h ⊢ Pipeline.ΦA spec1 c := by
  cases n with
  | zero => exact Entails.refl _
  | succ n =>
    rw [PhiS_succ, PhiA_eq]
    iintro ⟨HA, HV, HR, Hg⟩
    iframe HR Hg
    isplitl [HA]; · iexists _; iexact HA
    iexists _; iexact HV

theorem hout1 (c : Dev nD) : (dat1 V c).Φ (Fin.last cfg1.N) ⊢ Pipeline.ΦA spec1 c := by
  show PhiS V c (Fin.last cfg1.N).val _ ⊢ _
  exact PhiS_forget V c _ _

def bodyRest (c : Dev nD) (t : Fin cfg1.N) : sProp 𝕄 :=
  iprop((dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d))
    ∗ (∃ d, owns (c : Thread nD τ) (ms5 t) fullShare ((dat1 V c).before 5 t d))
    ∗ (∃ d, owns (c : Thread nD τ) (ms6 t) fullShare ((dat1 V c).before 6 t d))
    ∗ (∃ d, owns (c : Thread nD τ) (ms7 t) fullShare ((dat1 V c).before 7 t d)))

def bodyPre (c : Dev nD) (t : Fin cfg1.N) : sProp 𝕄 := iprop((dat1 V c).Φ t.castSucc ∗ bodyRest V c t)

def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t ∗ (dat1 V c).leavesExact 7 t)

abbrev Step (c : Dev nD) (t : Fin cfg1.N) (P : sProp 𝕄) : Prop :=
  P ⊢ wp frame (wpE (defs₀ (F := F)) Variants.none c none) Set.univ (bodyAt1 t) (fun _ => bodyPost V c t)

theorem step_of_run (c : Dev nD) (t : Fin cfg1.N) (a a' : Vec F S1024x1024 .f32) (b b' : Vec F S1024x1 .f32)
    (p5 : Vec F S1024x1024 .bf16 → Vec F S1024x1024 .bf16) (p6 p7 : Vec F S1024x1 .f32 → Vec F S1024x1 .f32)
    (hrun : ∀ d5 d6 d7 (K : PUnit → sProp 𝕄),
      iprop(held c (ms0 t) (ms1 t) (ms2 t) (ms3 t) (ms4 t) (ms5 t) (ms6 t) (ms7 t) scA scV
          (Carry.lhs1 V c t) (Carry.rhs1 V c t) (Carry.av1 V c t) (Carry.ar1 V c t) (Carry.sp1 V c t) d5 d6 d7 a b
        ∗ (held c (ms0 t) (ms1 t) (ms2 t) (ms3 t) (ms4 t) (ms5 t) (ms6 t) (ms7 t) scA scV
          (Carry.lhs1 V c t) (Carry.rhs1 V c t) (Carry.av1 V c t) (Carry.ar1 V c t) (Carry.sp1 V c t) (p5 d5) (p6 d6) (p7 d7) a' b' -∗ K ⟨⟩))
      ⊢ wp frame (wpE (defs₀ (F := F)) Variants.none c none) Set.univ (bodyAt1 t) K)
    (ha : Carry.acc1 V c t.val t.isLt = a') (hb : Carry.vec1 V c t.val t.isLt = b')
    (h5 : ∀ d, owns (c : Thread nD τ) (ms5 t) fullShare (p5 ((dat1 V c).before 5 t d)) ⊢ (dat1 V c).leavesExact 5 t)
    (h6 : ∀ d, owns (c : Thread nD τ) (ms6 t) fullShare (p6 ((dat1 V c).before 6 t d)) ⊢ (dat1 V c).leavesExact 6 t)
    (h7 : ∀ d, owns (c : Thread nD τ) (ms7 t) fullShare (p7 ((dat1 V c).before 7 t d)) ⊢ (dat1 V c).leavesExact 7 t) :
    Step V c t iprop(iprop(owns (c : Thread nD τ) scA fullShare a ∗ owns (c : Thread nD τ) scV fullShare b ∗ restBut c ∗ (∃ r, prngReg c r))
      ∗ bodyRest V c t) := by
  unfold Step bodyRest bodyPost
  simp only [before0, before1, before2, before3, before4]
  rw [leaves0, leaves1, leaves2, leaves3, leaves4]
  rw [show (dat1 V c).owesAt () t.succ = (dat1 V c).owesAt () t.castSucc from rfl]
  rw [show (dat1 V c).Φ t.succ = PhiS V c (t.val + 1) t.isLt from rfl, PhiS_succ, ha, hb]
  iintro ⟨⟨HA, HV, HR, Hg⟩, Ho, ⟨%e0, H0⟩, ⟨%e1, H1⟩, ⟨%e2, H2⟩, ⟨%e3, H3⟩, ⟨%e4, H4⟩, ⟨%d5, H5⟩, ⟨%d6, H6⟩, ⟨%d7, H7⟩⟩
  iapply (hrun ((dat1 V c).before 5 t d5) ((dat1 V c).before 6 t d6) ((dat1 V c).before 7 t d7) _)
  unfold held
  isplitl [H0 H1 H2 H3 H4 H5 H6 H7 HA HV]
  · iframe
  iintro ⟨H0, H1, H2, H3, H4, H5, H6, H7, HA, HV⟩
  iframe
  isplitl [H5]; · iapply (h5 d5); iexact H5
  isplitl [H6]; · iapply (h6 d6); iexact H6
  iapply (h7 d7); iexact H7

theorem idle_back (c : Dev nD) (w : Fin cfg1.W) (t : Fin cfg1.N) (hi : cfg1.idle w (cfg1.grid.coords t) = true) (hf : ¬(cfg1.win w).flush t = true) (d) :
    owns (c : Thread nD τ) ((cfg1.win w).stage (cfg1.slots t w)) fullShare ((dat1 V c).before w t d) ⊢ (dat1 V c).leavesExact w t := by
  rw [Dat.leavesExact_idle (dat1 V c) w t hi (Bool.eq_false_iff.mpr hf)]; iintro H; iexists d; iexact H

theorem caseA (c : Dev nD) (t : Fin cfg1.N) (h0 : t.val % 4 = 0) (h16 : t.val % 16 = 0) : Step V c t (bodyPre V c t) := by
  have h3 : ¬t.val % 4 = 3 := by omega
  have h15 : ¬t.val % 16 = 15 := by omega
  unfold Step bodyPre
  rw [Phi_castSucc]
  refine (sep_mono_left (PhiS_forget V c _ _)).trans ?_
  rw [PhiA_eq]
  iintro ⟨⟨⟨⟨⟨%a, HA⟩, ⟨%b, HV⟩⟩, HR⟩, Hg⟩, Hrest⟩
  iapply (step_of_run V c t a _ b _ _ _ _
    (fun _ _ _ _ => runA _ _ _ _ _ _ _ _ _ _ _ _ _ _ _ _ _ _ _ _ _ _ _ _ _ _ _ _ _ _ _ _ _ _ ((hcond0 t).mpr h0) ((hcond1 t).mpr h16) (mt (hcond2 t).mp h3) (mt (hcond3 t).mp h15))
    (acc1_reset V c t h0) (vec1_reset V c t h16) (idle_back V c 5 t (idle5 t h3) (mt (flush1_5 t).mp h3)) (idle_back V c 6 t (idle6 t h15) (mt (flush1_6 t).mp h15)) (idle_back V c 7 t (idle7 t h15) (mt (flush1_7 t).mp h15)))
  iframe

theorem caseB (c : Dev nD) (t : Fin cfg1.N) (h0 : t.val % 4 = 0) (h16 : ¬t.val % 16 = 0) : Step V c t (bodyPre V c t) := by
  have h3 : ¬t.val % 4 = 3 := by omega
  have h15 : ¬t.val % 16 = 15 := by omega
  unfold Step bodyPre
  rw [Phi_castSucc, PhiS_pos V c _ _ (fun e => h16 (by rw [e]))]
  exact step_of_run V c t _ _ _ _ _ _ _
    (fun _ _ _ _ => runB _ _ _ _ _ _ _ _ _ _ _ _ _ _ _ _ _ _ _ _ _ _ _ _ _ _ _ _ _ _ _ _ _ _ ((hcond0 t).mpr h0) (mt (hcond1 t).mp h16) (mt (hcond2 t).mp h3) (mt (hcond3 t).mp h15))
    (acc1_reset V c t h0) (vec1_keep V c t h16 h3) (idle_back V c 5 t (idle5 t h3) (mt (flush1_5 t).mp h3)) (idle_back V c 6 t (idle6 t h15) (mt (flush1_6 t).mp h15)) (idle_back V c 7 t (idle7 t h15) (mt (flush1_7 t).mp h15))

theorem caseC (c : Dev nD) (t : Fin cfg1.N) (h0 : ¬t.val % 4 = 0) (h3 : ¬t.val % 4 = 3) : Step V c t (bodyPre V c t) := by
  have h16 : ¬t.val % 16 = 0 := by omega
  have h15 : ¬t.val % 16 = 15 := by omega
  unfold Step bodyPre
  rw [Phi_castSucc, PhiS_pos V c _ _ (fun e => h0 (by rw [e]))]
  exact step_of_run V c t _ _ _ _ _ _ _
    (fun _ _ _ _ => runC _ _ _ _ _ _ _ _ _ _ _ _ _ _ _ _ _ _ _ _ _ _ _ _ _ _ _ _ _ _ _ _ _ _ (mt (hcond0 t).mp h0) (mt (hcond1 t).mp h16) (mt (hcond2 t).mp h3) (mt (hcond3 t).mp h15))
    (acc1_step V c t h0) (vec1_keep V c t h16 h3) (idle_back V c 5 t (idle5 t h3) (mt (flush1_5 t).mp h3)) (idle_back V c 6 t (idle6 t h15) (mt (flush1_6 t).mp h15)) (idle_back V c 7 t (idle7 t h15) (mt (flush1_7 t).mp h15))

theorem caseD (c : Dev nD) (t : Fin cfg1.N) (h3 : t.val % 4 = 3) (h15 : ¬t.val % 16 = 15) : Step V c t (bodyPre V c t) := by
  have h0 : ¬t.val % 4 = 0 := by omega
  have h16 : ¬t.val % 16 = 0 := by omega
  have ha := acc1_step V c t h0
  have hb := vec1_mul V c t h3
  rw [ha] at hb
  unfold Step bodyPre
  rw [Phi_castSucc, PhiS_pos V c _ _ (fun e => h0 (by rw [e]))]
  exact step_of_run V c t _ _ _ _ _ _ _
    (fun _ _ _ _ => runD _ _ _ _ _ _ _ _ _ _ _ _ _ _ _ _ _ _ _ _ _ _ _ _ _ _ _ _ _ _ _ _ _ _ (mt (hcond0 t).mp h0) (mt (hcond1 t).mp h16) ((hcond2 t).mpr h3) (mt (hcond3 t).mp h15))
    ha hb (fun _ => Entails.of_eq (by unfold Dat.leavesExact; rw [live5 t h3, after1_5 V c t h3, Carry.ak1, ha])) (idle_back V c 6 t (idle6 t h15) (mt (flush1_6 t).mp h15)) (idle_back V c 7 t (idle7 t h15) (mt (flush1_7 t).mp h15))

theorem caseE (c : Dev nD) (t : Fin cfg1.N) (h15 : t.val % 16 = 15) : Step V c t (bodyPre V c t) := by
  have h3 : t.val % 4 = 3 := by omega
  have h0 : ¬t.val % 4 = 0 := by omega
  have h16 : ¬t.val % 16 = 0 := by omega
  have ha := acc1_step V c t h0
  have hb := vec1_mul V c t h3
  rw [ha] at hb
  unfold Step bodyPre
  rw [Phi_castSucc, PhiS_pos V c _ _ (fun e => h0 (by rw [e]))]
  exact step_of_run V c t _ _ _ _ _ _ _
    (fun _ _ _ _ => runE _ _ _ _ _ _ _ _ _ _ _ _ _ _ _ _ _ _ _ _ _ _ _ _ _ _ _ _ _ _ _ _ _ _ (mt (hcond0 t).mp h0) (mt (hcond1 t).mp h16) ((hcond2 t).mpr h3) ((hcond3 t).mpr h15))
    ha hb (fun _ => Entails.of_eq (by unfold Dat.leavesExact; rw [live5 t h3, after1_5 V c t h3, Carry.ak1, ha]))
    (fun _ => Entails.of_eq (by unfold Dat.leavesExact; rw [live6 t h15, after1_6 V c t h15, Carry.node1, hb])) (fun _ => Entails.of_eq (by unfold Dat.leavesExact; rw [live7 t h15, after1_7 V c t h15, Carry.step1, hb]))

theorem sound_body (c : Dev nD) (t : Fin cfg1.N) : Step V c t (bodyPre V c t) := by
  by_cases h0 : t.val % 4 = 0
  · by_cases h16 : t.val % 16 = 0
    · exact caseA V c t h0 h16
    · exact caseB V c t h0 h16
  · by_cases h3 : t.val % 4 = 3
    · by_cases h15 : t.val % 16 = 15
      · exact caseE V c t h15
      · exact caseD V c t h3 h15
    · exact caseC V c t h0 h3

theorem body_obligation1 (c : Dev nD) : BodyObligation (dat1 (F := F) V c) (defs₀ (F := F)) Variants.none () Set.univ := fun t => by
  rw [bigSep_W1, bigSep_W1]
  exact sound_body V c t

end Cert.KernelIdeal.R1

end
-- ==== Proof.R2.lean ====
import proofs.«407440_j80281528697035_2_alg».proof.Proof.Gen.KernelIdeal.Launch
import proofs.«407440_j80281528697035_2_alg».proof.Proof.Gen.KernelIdeal.Skeleton
import proofs.«407440_j80281528697035_2_alg».proof.Proof.Gen.KernelIdeal.Points
import proofs.«407440_j80281528697035_2_alg».proof.Proof.Carry
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1 (i : grid2.Coords) : Prop :=
  Scalar.cmpi .ne (Scalar.extui (Scalar.cmpi .eq (BitVec.ofNat 32 (i 2).val) 0#32) : BitVec 32) 0#32 = 1#1

abbrev cond2 (i : grid2.Coords) : Prop :=
  Scalar.cmpi .ne (Scalar.extui (Scalar.andi (Scalar.cmpi .eq (BitVec.ofNat 32 (i 1).val) 0#32) (Scalar.cmpi .eq (BitVec.ofNat 32 (i 2).val) 0#32)) : BitVec 32) 0#32 = 1#1

abbrev cond3 (i : grid2.Coords) : Prop :=
  Scalar.cmpi .ne (Scalar.extui (Scalar.cmpi .eq (BitVec.ofNat 32 (i 2).val) 3#32) : BitVec 32) 0#32 = 1#1

abbrev cond4 (i : grid2.Coords) : Prop := k2_cond4 i = 1#1

theorem hcond1 : ∀ t : Fin cfg2.N, cond1 (grid2.coords t) ↔ t.val % 4 = 0 :=
  (by decide +kernel : ∀ t : Fin grid2.N, cond1 (grid2.coords t) ↔ t.val % 4 = 0)
theorem hcond2 : ∀ t : Fin cfg2.N, cond2 (grid2.coords t) ↔ t.val % 16 = 0 :=
  (by decide +kernel : ∀ t : Fin grid2.N, cond2 (grid2.coords t) ↔ t.val % 16 = 0)
theorem hcond3 : ∀ t : Fin cfg2.N, cond3 (grid2.coords t) ↔ t.val % 4 = 3 :=
  (by decide +kernel : ∀ t : Fin grid2.N, cond3 (grid2.coords t) ↔ t.val % 4 = 3)
theorem hcond4 : ∀ t : Fin cfg2.N, cond4 (grid2.coords t) ↔ t.val % 16 = 15 :=
  (by decide +kernel : ∀ t : Fin grid2.N, cond4 (grid2.coords t) ↔ t.val % 16 = 15)

theorem hz2 : (![0, 0] : Fin 2 → ℕ) = fun _ => 0 := by funext a; fin_cases a <;> rfl

theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  exact (View.read_writes_eq_canon v f _ fun y => ⟨_, List.Mem.head _, by
    show y ∈ (Rect.whole S).set; rw [Rect.set_whole]; exact Finset.mem_univ y⟩).trans (View.canon_cons_unit_zero rfl inb w L)

section Runs

variable (c : Dev nD) (i : grid2.Coords)
  (arg3 : Memref sig .tc .vmem S1024x1024 .bf16) (harg3 : arg3.IsWhole)
  (arg4 : Memref sig .tc .vmem S1024x1024 .bf16) (harg4 : arg4.IsWhole)
  (arg5 : Memref sig .tc .vmem S1024x1 .bf16) (harg5 : arg5.IsWhole)
  (arg6 : Memref sig .tc .vmem S1024x1 .f32) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x1 .f32) (harg9 : arg9.IsWhole)
  (arg10 : Memref sig .tc .vmem S1024x1024 .f32) (harg10 : arg10.IsWhole)
  (arg11 : Memref sig .tc .vmem S1024x1 .f32) (harg11 : arg11.IsWhole)

local notation "body2" => cc2_kernel i arg3 harg3 arg4 harg4 arg5 harg5 arg6 harg6 arg7 harg7 arg8 harg8 arg9 harg9 arg10 harg10 arg11 harg11

theorem specA (h1 : cond1 i) (h2 : cond2 i) (h3 : ¬cond3 i) (h4 : ¬cond4 i) (x0 x1 : Vec F S1024x1024 .bf16)
    (E : Set ℕ) (K : PUnit → sProp 𝕄) :
    iprop(owns (c : Thread nD τ) arg3 fullShare x0 ∗ owns (c : Thread nD τ) arg4 fullShare x1
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1
            ∗ owns (c : Thread nD τ) arg10 fullShare (k2_pay2 k2_pay1 x0 x1) ∗ owns (c : Thread nD τ) arg11 fullShare k2_pay3) -∗ K ⟨⟩))
      ⊢ wp frame (wpE (defs₀ (F := F)) Variants.none c none) E body2 K := by
  simp only [cc2_kernel_eq_skeleton]; unfold cc2_kernel_skel
  unfold owns
  iintro ⟨⟨%f0, %hf0, H0⟩, ⟨%f1, %hf1, H1⟩, ⟨%ds0, %fs0, -, HS0⟩, ⟨%ds1, %fs1, -, HS1⟩, Hk⟩
  obtain rfl := harg3.eq_unread hf0; obtain rfl := harg4.eq_unread hf1
  sl_exec (disch := assumption)
  sl_step
  iapply Hk
  isplitl [H0]
  · iexists _; isplitr; · ipureintro; exact harg3.read_unread _
    iexact H0
  isplitl [H1]
  · iexists _; isplitr; · ipureintro; exact harg4.read_unread _
    iexact H1
  isplitl [HS0]
  · iexists _; isplitr
    swap; · iexact HS0
    ipureintro; sl_unfold_words
    rw [read_writes_unit_zero (S := S1024x1024) _ _ hz2]
    simp only [View.readCov_unit_zero (S := S1024x1024) _ hz2, View.readAt_eq_ld,
      Memref.IsWhole.read_unread, View.ld_unit_zero (S := S1024x1024) hz2]
  iexists _; isplitr
  swap; · iexact HS1
  ipureintro; sl_unfold_words
  rw [read_writes_unit_zero (S := S1024x1) _ _ hz2]

theorem specB (h1 : cond1 i) (h2 : ¬cond2 i) (h3 : ¬cond3 i) (h4 : ¬cond4 i) (x0 x1 : Vec F S1024x1024 .bf16)
    (E : Set ℕ) (K : PUnit → sProp 𝕄) :
    iprop(owns (c : Thread nD τ) arg3 fullShare x0 ∗ owns (c : Thread nD τ) arg4 fullShare x1
        ∗ (∃ d, owns (c : Thread nD τ) arg10 fullShare d)
        ∗ (iprop(owns (c : Thread nD τ) arg3 fullShare x0 ∗ owns (c : Thread nD τ) arg4 fullShare x1
            ∗ owns (c : Thread nD τ) arg10 fullShare (k2_pay2 k2_pay1 x0 x1)) -∗ K ⟨⟩))
      ⊢ wp frame (wpE (defs₀ (F := F)) Variants.none c none) E body2 K := by
  simp only [cc2_kernel_eq_skeleton]; unfold cc2_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := assumption)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro; sl_unfold_words
  rw [read_writes_unit_zero (S := S1024x1024) _ _ hz2]
  simp only [View.readCov_unit_zero (S := S1024x1024) _ hz2, View.readAt_eq_ld,
    Memref.IsWhole.read_unread, View.ld_unit_zero (S := S1024x1024) hz2]

theorem specC (h1 : ¬cond1 i) (h2 : ¬cond2 i) (h3 : ¬cond3 i) (h4 : ¬cond4 i)
    (x0 x1 : Vec F S1024x1024 .bf16) (xs0 : Vec F S1024x1024 .f32) (E : Set ℕ) (K : PUnit → sProp 𝕄) :
    iprop(owns (c : Thread nD τ) arg3 fullShare x0 ∗ owns (c : Thread nD τ) arg4 fullShare x1
        ∗ owns (c : Thread nD τ) arg10 fullShare xs0
        ∗ (iprop(owns (c : Thread nD τ) arg3 fullShare x0 ∗ owns (c : Thread nD τ) arg4 fullShare x1
            ∗ owns (c : Thread nD τ) arg10 fullShare (k2_pay2 xs0 x0 x1)) -∗ K ⟨⟩))
      ⊢ wp frame (wpE (defs₀ (F := F)) Variants.none c none) E body2 K := by
  simp only [cc2_kernel_eq_skeleton]; unfold cc2_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg10.eq_unread hfs0
  sl_exec (disch := assumption)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro; sl_unfold_words
  rw [read_writes_unit_zero (S := S1024x1024) _ _ hz2]
  simp only [View.readAt_eq_ld, Memref.IsWhole.read_unread, View.ld_unit_zero (S := S1024x1024) hz2]

theorem specD (h1 : ¬cond1 i) (h2 : ¬cond2 i) (h3 : cond3 i) (h4 : ¬cond4 i)
    (x0 x1 : Vec F S1024x1024 .bf16) (x2 : Vec F S1024x1 .bf16) (xs0 : Vec F S1024x1024 .f32) (xs1 : Vec F S1024x1 .f32)
    (E : Set ℕ) (K : PUnit → sProp 𝕄) :
    iprop(owns (c : Thread nD τ) arg3 fullShare x0 ∗ owns (c : Thread nD τ) arg4 fullShare x1
        ∗ owns (c : Thread nD τ) arg5 fullShare x2
        ∗ owns (c : Thread nD τ) arg10 fullShare xs0 ∗ owns (c : Thread nD τ) arg11 fullShare xs1
        ∗ (iprop(owns (c : Thread nD τ) arg3 fullShare x0 ∗ owns (c : Thread nD τ) arg4 fullShare x1
            ∗ owns (c : Thread nD τ) arg5 fullShare x2
            ∗ owns (c : Thread nD τ) arg10 fullShare (k2_pay2 xs0 x0 x1)
            ∗ owns (c : Thread nD τ) arg11 fullShare (k2_pay4 (k2_pay2 xs0 x0 x1) xs1 x2)) -∗ K ⟨⟩))
      ⊢ wp frame (wpE (defs₀ (F := F)) Variants.none c none) E body2 K := by
  simp only [cc2_kernel_eq_skeleton]; unfold cc2_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg10.eq_unread hfs0; obtain rfl := harg11.eq_unread hfs1
  sl_exec (disch := assumption)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HS0]
  · iexists _; isplitr
    swap; · iexact HS0
    ipureintro; sl_unfold_words
    rw [read_writes_unit_zero (S := S1024x1024) _ _ hz2]
    simp only [View.readAt_eq_ld, Memref.IsWhole.read_unread, View.ld_unit_zero (S := S1024x1024) hz2]
  iexists _; isplitr
  swap; · iexact HS1
  ipureintro; sl_unfold_words
  rw [read_writes_unit_zero (S := S1024x1) _ _ hz2]
  simp only [View.readCov_unit_zero (S := S1024x1024) _ hz2, View.readAt_eq_ld, Memref.IsWhole.read_unread,
    View.ld_unit_zero (S := S1024x1024) hz2, View.ld_unit_zero (S := S1024x1) hz2]

set_option maxHeartbeats 400000 in
theorem specE (h1 : ¬cond1 i) (h2 : ¬cond2 i) (h3 : cond3 i) (h4 : cond4 i)
    (x0 x1 : Vec F S1024x1024 .bf16) (x2 : Vec F S1024x1 .bf16) (x3 x4 : Vec F S1024x1 .f32)
    (xs0 : Vec F S1024x1024 .f32) (xs1 : Vec F S1024x1 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4
        ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ owns (c : Thread nD τ) arg8 fullShare (k2_pay6 x4 (k2_pay4 (k2_pay2 xs0 x0 x1) xs1 x2) x3)
            ∗ owns (c : Thread nD τ) arg9 fullShare (k2_pay5 x4 (k2_pay4 (k2_pay2 xs0 x0 x1) xs1 x2))
            ∗ owns (c : Thread nD τ) arg10 fullShare (k2_pay2 xs0 x0 x1)
            ∗ owns (c : Thread nD τ) arg11 fullShare (k2_pay4 (k2_pay2 xs0 x0 x1) xs1 x2)) -∗ K ⟨⟩))
      ⊢ wp frame (wpE (defs₀ (F := F)) Variants.none c none) E body2 K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4
  obtain rfl := harg10.eq_unread hfs0; obtain rfl := harg11.eq_unread hfs1
  sl_exec (disch := assumption)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; sl_unfold_words
    rw [read_writes_unit_zero (S := S1024x1) _ _ hz2]
    simp only [View.readCov_unit_zero (S := S1024x1024) _ hz2, View.readCov_unit_zero (S := S1024x1) _ hz2, View.readAt_eq_ld,
      Memref.IsWhole.read_unread, View.ld_unit_zero (S := S1024x1024) hz2, View.ld_unit_zero (S := S1024x1) hz2]
  isplitl [H6]
  · iexists _; isplitr
    swap; · iexact H6
    ipureintro; sl_unfold_words
    rw [read_writes_unit_zero (S := S1024x1) _ _ hz2]
    simp only [View.readCov_unit_zero (S := S1024x1024) _ hz2, View.readCov_unit_zero (S := S1024x1) _ hz2, View.readAt_eq_ld,
      Memref.IsWhole.read_unread, View.ld_unit_zero (S := S1024x1024) hz2, View.ld_unit_zero (S := S1024x1) hz2]
  isplitl [HS0]
  · iexists _; isplitr
    swap; · iexact HS0
    ipureintro; sl_unfold_words
    rw [read_writes_unit_zero (S := S1024x1024) _ _ hz2]
    simp only [View.readAt_eq_ld, Memref.IsWhole.read_unread, View.ld_unit_zero (S := S1024x1024) hz2]
  iexists _; isplitr
  swap; · iexact HS1
  ipureintro; sl_unfold_words
  rw [read_writes_unit_zero (S := S1024x1) _ _ hz2]
  simp only [View.readCov_unit_zero (S := S1024x1024) _ hz2, View.readAt_eq_ld, Memref.IsWhole.read_unread,
    View.ld_unit_zero (S := S1024x1024) hz2, View.ld_unit_zero (S := S1024x1) hz2]

end Runs

section Carried

variable (c : Dev nD)

theorem acc2_start (t : Fin cfg2.N) (h : t.val % 4 = 0) :
    Carry.acc2 V c t.val t.isLt = k2_pay2 k2_pay1 (Carry.lhs2 V c t) (Carry.rhs2 V c t) :=
  Carry.accOf_reset k2_pay1 k2_pay2 _ _ t.val t.isLt h

theorem acc2_next (t : Fin cfg2.N) (h : ¬t.val % 4 = 0) :
    Carry.acc2 V c t.val t.isLt
      = k2_pay2 (Carry.acc2 V c (t.val - 1) (Nat.lt_of_le_of_lt (Nat.sub_le _ _) t.isLt)) (Carry.lhs2 V c t) (Carry.rhs2 V c t) :=
  Carry.accOf_step k2_pay1 k2_pay2 _ _ t.val (t.val - 1) t.isLt _ (by omega) h

theorem vec2_start (t : Fin cfg2.N) (h : t.val % 16 = 0) : Carry.vec2 V c t.val t.isLt = k2_pay3 :=
  Carry.vecOf_reset k2_pay1 k2_pay2 k2_pay3 k2_pay4 _ _ _ t.val t.isLt h

theorem vec2_keep (t : Fin cfg2.N) (h3 : ¬t.val % 4 = 3) (h16 : ¬t.val % 16 = 0) :
    Carry.vec2 V c t.val t.isLt = Carry.vec2 V c (t.val - 1) (Nat.lt_of_le_of_lt (Nat.sub_le _ _) t.isLt) :=
  Carry.vecOf_keep k2_pay1 k2_pay2 k2_pay3 k2_pay4 _ _ _ t.val (t.val - 1) t.isLt _ (by omega) h3 h16

theorem vec2_fold (t : Fin cfg2.N) (h3 : t.val % 4 = 3) :
    Carry.vec2 V c t.val t.isLt
      = k2_pay4 (Carry.acc2 V c t.val t.isLt) (Carry.vec2 V c (t.val - 1) (Nat.lt_of_le_of_lt (Nat.sub_le _ _) t.isLt)) (Carry.av2 V c t) :=
  Carry.vecOf_add k2_pay1 k2_pay2 k2_pay3 k2_pay4 _ _ _ t.val (t.val - 1) t.isLt _ (by omega) h3

end Carried

theorem idle_iff : ∀ (w : Fin cfg2.W) (t : Fin cfg2.N), 5 ≤ w.val → (cfg2.idle w (grid2.coords t) = true ↔ ¬t.val % 16 = 15) :=
  (by decide +kernel : ∀ (w : Fin 7) (t : Fin grid2.N), 5 ≤ w.val → (idle2 w (grid2.coords t) = true ↔ ¬t.val % 16 = 15))

abbrev scM0 : Memref sig .tc .vmem S1024x1024 .f32 := Memref.whole cc2_scratch0
abbrev scM1 : Memref sig .tc .vmem S1024x1 .f32 := Memref.whole cc2_scratch1

abbrev restBut (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM0 fullShare d) ∗ (∃ d, owns (c : Thread nD τ) scM1 fullShare d))
          ∗ restBut (F := F) c) ∗ (∃ r, prngReg c r)) := by
  unfold Pipeline.ΦA; rw [scopedRest2_split]; simp only [scM0, scM1, restBut, owns_whole]; try rfl

def Phi2 (c : Dev nD) : (n : ℕ) → n ≤ cfg2.N → sProp 𝕄
  | 0, _ => Pipeline.ΦA spec2 c
  | n + 1, hn =>
    iprop(iprop(iprop(owns (c : Thread nD τ) scM0 fullShare (Carry.acc2 V c n hn) ∗ owns (c : Thread nD τ) scM1 fullShare (Carry.vec2 V c n hn))
      ∗ restBut (F := F) c) ∗ (∃ r, prngReg c r))

theorem Phi2_succ (c : Dev nD) (n : ℕ) (hn : n < cfg2.N) :
    Phi2 V c (n + 1) hn
      = iprop(iprop(iprop(owns (c : Thread nD τ) scM0 fullShare (Carry.acc2 V c n hn) ∗ owns (c : Thread nD τ) scM1 fullShare (Carry.vec2 V c n hn))
          ∗ restBut (F := F) c) ∗ (∃ r, prngReg c r)) := rfl

theorem Phi2_pos (c : Dev nD) (n : ℕ) (h : n ≤ cfg2.N) (hz : n ≠ 0) :
    Phi2 V c n h
      = iprop(iprop(iprop(owns (c : Thread nD τ) scM0 fullShare (Carry.acc2 V c (n - 1) (by omega))
            ∗ owns (c : Thread nD τ) scM1 fullShare (Carry.vec2 V c (n - 1) (by omega)))
          ∗ restBut (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => Carry.iblk2 V c 0 t
    | ⟨1, _⟩ => Carry.iblk2 V c 1 t
    | ⟨2, _⟩ => Carry.iblk2 V c 2 t
    | ⟨3, _⟩ => Carry.iblk2 V c 3 t
    | ⟨4, _⟩ => Carry.iblk2 V c 4 t
    | ⟨5, _⟩ => Carry.node2 V c t
    | ⟨6, _⟩ => Carry.step2 V c t
  Φ t := Phi2 V c t.val (Nat.le_of_lt_succ t.isLt)
  q _ := fullShare
  owed _ := 0

theorem Phi2_zero (c : Dev nD) : (dat2 V c).Φ 0 = Pipeline.ΦA spec2 c := rfl

theorem Phi_castSucc (c : Dev nD) (t : Fin cfg2.N) :
    (dat2 V c).Φ t.castSucc = Phi2 V c t.val (Nat.le_of_lt t.isLt) := by
  dsimp only [dat2]; simp only [Fin.coe_castSucc]

theorem after2_5 (c : Dev nD) (t : Fin cfg2.N) (h : t.val % 16 = 15) : (dat2 V c).after 5 t = Carry.node2 V c t := by
  dsimp only [dat2]

theorem after2_6 (c : Dev nD) (t : Fin cfg2.N) (h : t.val % 16 = 15) : (dat2 V c).after 6 t = Carry.step2 V c t := by
  dsimp only [dat2]

theorem Phi2_weak (c : Dev nD) (n : ℕ) (h : n ≤ cfg2.N) :
    Phi2 V c n h
      ⊢ iprop(iprop(iprop((∃ d, owns (c : Thread nD τ) scM0 fullShare d) ∗ (∃ d, owns (c : Thread nD τ) scM1 fullShare d))
          ∗ restBut (F := F) c) ∗ (∃ r, prngReg c r)) := by
  cases n with
  | zero => exact Entails.of_eq (PhiA2_eq c)
  | succ n =>
    rw [Phi2_succ]
    iintro ⟨⟨⟨HS0, HS1⟩, Hr⟩, Hg⟩
    iframe Hr Hg
    isplitl [HS0]; · iexists _; iexact HS0
    iexists _; iexact HS1

theorem hout2 (c : Dev nD) : (dat2 V c).Φ (Fin.last cfg2.N) ⊢ Pipeline.ΦA spec2 c :=
  (Phi2_weak V c (Fin.last cfg2.N).val (Nat.le_of_lt_succ (Fin.last cfg2.N).isLt)).trans (Entails.of_eq (PhiA2_eq c).symm)

theorem before2_0 (c : Dev nD) (t : Fin cfg2.N) (d) : (dat2 V c).before 0 t d = Carry.iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = Carry.iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = Carry.iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = Carry.iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = Carry.iblk2 V c 4 t :=
  (dat2 V c).before_in_eq_fetched 4 rfl (fun _ => rfl) (fun _ _ _ => rfl) (fun _ => rfl) t d

abbrev ms0 (t : Fin cfg2.N) : Memref sig .tc .vmem S1024x1024 .bf16 := win2_0.stage (cfg2.slots t 0)
abbrev ms1 (t : Fin cfg2.N) : Memref sig .tc .vmem S1024x1024 .bf16 := win2_1.stage (cfg2.slots t 1)
abbrev ms2 (t : Fin cfg2.N) : Memref sig .tc .vmem S1024x1 .bf16 := win2_2.stage (cfg2.slots t 2)
abbrev ms3 (t : Fin cfg2.N) : Memref sig .tc .vmem S1024x1 .f32 := win2_3.stage (cfg2.slots t 3)
abbrev ms4 (t : Fin cfg2.N) : Memref sig .tc .vmem S1024x1 .f32 := win2_4.stage (cfg2.slots t 4)
abbrev ms5 (t : Fin cfg2.N) : Memref sig .tc .vmem S1024x1 .f32 := win2_5.stage (cfg2.slots t 5)
abbrev ms6 (t : Fin cfg2.N) : Memref sig .tc .vmem S1024x1 .f32 := win2_6.stage (cfg2.slots t 6)

theorem leaves0 (c : Dev nD) (t : Fin cfg2.N) :
    (dat2 V c).leavesExact 0 t = owns (c : Thread nD τ) (ms0 t) fullShare (Carry.iblk2 V c 0 t) := rfl
theorem leaves1 (c : Dev nD) (t : Fin cfg2.N) :
    (dat2 V c).leavesExact 1 t = owns (c : Thread nD τ) (ms1 t) fullShare (Carry.iblk2 V c 1 t) := rfl
theorem leaves2 (c : Dev nD) (t : Fin cfg2.N) :
    (dat2 V c).leavesExact 2 t = owns (c : Thread nD τ) (ms2 t) fullShare (Carry.iblk2 V c 2 t) := rfl
theorem leaves3 (c : Dev nD) (t : Fin cfg2.N) :
    (dat2 V c).leavesExact 3 t = owns (c : Thread nD τ) (ms3 t) fullShare (Carry.iblk2 V c 3 t) := rfl
theorem leaves4 (c : Dev nD) (t : Fin cfg2.N) :
    (dat2 V c).leavesExact 4 t = owns (c : Thread nD τ) (ms4 t) fullShare (Carry.iblk2 V c 4 t) := rfl

theorem leaves5_live (c : Dev nD) (t : Fin cfg2.N) (h : t.val % 16 = 15) :
    (dat2 V c).leavesExact 5 t = owns (c : Thread nD τ) (ms5 t) fullShare (Carry.node2 V c t) := by
  unfold Dat.leavesExact; rw [Bool.eq_false_iff.2 fun e => (idle_iff 5 t (by decide)).1 e h, after2_5 V c t h]
theorem leaves6_live (c : Dev nD) (t : Fin cfg2.N) (h : t.val % 16 = 15) :
    (dat2 V c).leavesExact 6 t = owns (c : Thread nD τ) (ms6 t) fullShare (Carry.step2 V c t) := by
  unfold Dat.leavesExact; rw [Bool.eq_false_iff.2 fun e => (idle_iff 6 t (by decide)).1 e h, after2_6 V c t h]

theorem leaves5_idle (c : Dev nD) (t : Fin cfg2.N) (h : ¬t.val % 16 = 15) :
    (dat2 V c).leavesExact 5 t = iprop(∃ d, owns (c : Thread nD τ) (ms5 t) fullShare ((dat2 V c).before 5 t d)) :=
  Dat.leavesExact_idle (dat2 V c) 5 t ((idle_iff 5 t (by decide)).2 h) (Bool.eq_false_iff.2 fun e => h ((flush2_5 t).1 e))
theorem leaves6_idle (c : Dev nD) (t : Fin cfg2.N) (h : ¬t.val % 16 = 15) :
    (dat2 V c).leavesExact 6 t = iprop(∃ d, owns (c : Thread nD τ) (ms6 t) fullShare ((dat2 V c).before 6 t d)) :=
  Dat.leavesExact_idle (dat2 V c) 6 t ((idle_iff 6 t (by decide)).2 h) (Bool.eq_false_iff.2 fun e => h ((flush2_6 t).1 e))

def bodyPre (c : Dev nD) (t : Fin cfg2.N) : sProp 𝕄 :=
  iprop((dat2 V c).Φ t.castSucc ∗ (dat2 V c).owesAt () t.castSucc
    ∗ (∃ d, owns (c : Thread nD τ) (ms0 t) fullShare ((dat2 V c).before 0 t d))
    ∗ (∃ d, owns (c : Thread nD τ) (ms1 t) fullShare ((dat2 V c).before 1 t d))
    ∗ (∃ d, owns (c : Thread nD τ) (ms2 t) fullShare ((dat2 V c).before 2 t d))
    ∗ (∃ d, owns (c : Thread nD τ) (ms3 t) fullShare ((dat2 V c).before 3 t d))
    ∗ (∃ d, owns (c : Thread nD τ) (ms4 t) fullShare ((dat2 V c).before 4 t d))
    ∗ (∃ d, owns (c : Thread nD τ) (ms5 t) fullShare ((dat2 V c).before 5 t d))
    ∗ (∃ d, owns (c : Thread nD τ) (ms6 t) fullShare ((dat2 V c).before 6 t d)))

def bodyPost (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [leaves0, leaves1, leaves2, leaves3, leaves4]
  have hN : t.val < 64 := lt_of_lt_of_eq t.isLt N_2
  by_cases m4 : t.val % 4 = 0
  · have m3 : ¬t.val % 4 = 3 := by omega
    have m15 : ¬t.val % 16 = 15 := by omega
    rw [leaves5_idle V c t m15, leaves6_idle V c t m15, acc2_start V c t m4]
    by_cases m16 : t.val % 16 = 0
    · rw [vec2_start V c t m16]
      refine (sep_mono (Phi2_weak V c _ _) .rfl).trans ?_
      iintro ⟨⟨⟨⟨HS0, HS1⟩, Hr⟩, Hg⟩, Ho, ⟨%d0, H0⟩, ⟨%d1, H1⟩, ⟨%d2, H2⟩, ⟨%d3, H3⟩, ⟨%d4, H4⟩, H5, H6⟩
      iapply (specA _ _ _ _ _ _ _ _ _ _ _ _ _ _ _ _ _ _ _ _
        ((hcond1 t).2 m4) ((hcond2 t).2 m16) ((hcond3 t).not.2 m3) ((hcond4 t).not.2 m15)
        (Carry.lhs2 V c t) (Carry.rhs2 V c t) Set.univ _)
      iframe H0 H1 HS0 HS1
      iintro ⟨H0, H1, HS0, HS1⟩
      iframe
    · have hz : t.val ≠ 0 := fun e => m16 (by rw [e])
      rw [vec2_keep V c t m3 m16, Phi_castSucc V c t, Phi2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, H5, H6⟩
      iapply (specB _ _ _ _ _ _ _ _ _ _ _ _ _ _ _ _ _ _ _ _
        ((hcond1 t).2 m4) ((hcond2 t).not.2 m16) ((hcond3 t).not.2 m3) ((hcond4 t).not.2 m15)
        (Carry.lhs2 V c t) (Carry.rhs2 V c t) Set.univ _)
      iframe H0 H1
      isplitl [HS0]; · iexists _; iexact HS0
      iintro ⟨H0, H1, HS0⟩
      iframe
  · have m16 : ¬t.val % 16 = 0 := by omega
    have hz : t.val ≠ 0 := fun e => m4 (by rw [e])
    by_cases m3 : t.val % 4 = 3
    · by_cases m15 : t.val % 16 = 15
      · rw [leaves5_live V c t m15, leaves6_live V c t m15]
        unfold Carry.node2 Carry.step2
        rw [vec2_fold V c t m3, acc2_next V c t m4, Phi_castSucc V c t, Phi2_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (specE _ _ _ _ _ _ _ _ _ _ _ _ _ _ _ _ _ _ _ _
          ((hcond1 t).not.2 m4) ((hcond2 t).not.2 m16) ((hcond3 t).2 m3) ((hcond4 t).2 m15)
          (Carry.lhs2 V c t) (Carry.rhs2 V c t) (Carry.av2 V c t) (Carry.ar2 V c t) (Carry.sp2 V c t)
          (Carry.acc2 V c (t.val - 1) (Nat.lt_of_le_of_lt (Nat.sub_le _ _) t.isLt)) (Carry.vec2 V c (t.val - 1) (Nat.lt_of_le_of_lt (Nat.sub_le _ _) t.isLt)) Set.univ _)
        iframe H0 H1 H2 H3 H4 HS0 HS1
        isplitl [H5]; · iexists _; iexact H5
        isplitl [H6]; · iexists _; iexact H6
        iintro ⟨H0, H1, H2, H3, H4, H5, H6, HS0, HS1⟩
        iframe
      · rw [leaves5_idle V c t m15, leaves6_idle V c t m15, vec2_fold V c t m3, acc2_next V c t m4,
          Phi_castSucc V c t, Phi2_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩, H5, H6⟩
        iapply (specD _ _ _ _ _ _ _ _ _ _ _ _ _ _ _ _ _ _ _ _
          ((hcond1 t).not.2 m4) ((hcond2 t).not.2 m16) ((hcond3 t).2 m3) ((hcond4 t).not.2 m15)
          (Carry.lhs2 V c t) (Carry.rhs2 V c t) (Carry.av2 V c t)
          (Carry.acc2 V c (t.val - 1) (Nat.lt_of_le_of_lt (Nat.sub_le _ _) t.isLt)) (Carry.vec2 V c (t.val - 1) (Nat.lt_of_le_of_lt (Nat.sub_le _ _) t.isLt)) Set.univ _)
        iframe H0 H1 H2 HS0 HS1
        iintro ⟨H0, H1, H2, HS0, HS1⟩
        iframe
    · have m15 : ¬t.val % 16 = 15 := by omega
      rw [leaves5_idle V c t m15, leaves6_idle V c t m15, acc2_next V c t m4, vec2_keep V c t m3 m16,
        Phi_castSucc V c t, Phi2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, H5, H6⟩
      iapply (specC _ _ _ _ _ _ _ _ _ _ _ _ _ _ _ _ _ _ _ _
        ((hcond1 t).not.2 m4) ((hcond2 t).not.2 m16) ((hcond3 t).not.2 m3) ((hcond4 t).not.2 m15)
        (Carry.lhs2 V c t) (Carry.rhs2 V c t) (Carry.acc2 V c (t.val - 1) (Nat.lt_of_le_of_lt (Nat.sub_le _ _) t.isLt)) Set.univ _)
      iframe H0 H1 HS0
      iintro ⟨H0, H1, HS0⟩
      iframe

theorem body_obligation2 (c : Dev nD) : BodyObligation (dat2 (F := F) V c) (defs₀ (F := F)) Variants.none () Set.univ := fun t => by
  rw [bigSep_W2, bigSep_W2]
  exact sound_body V c t

end Cert.KernelIdeal.R2

end
-- ==== Proof.R1Share.lean ====
import proofs.«407440_j80281528697035_2_alg».proof.Proof.Gen.KernelIdeal.Launch

noncomputable section

namespace Cert.KernelIdeal.R1Share

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]
local notation "𝕄" => MT nD τ sig Unit (Elt F) ℕ (UR sig nD τ) ℕ

private theorem image_arrRef1 :
    Finset.univ.image (Pipeline.arrRef spec1)
      = {main_v35, main_v36, main_v19, main_v18, main_v37_0, main_v37_1, main_v37_2} := by decide

private theorem arrBufs_eq_arrays {c : Dev nD} (dat : Pipeline.Dat τ (Elt F) Unit ℕ (UR sig nD τ) ℕ cfg1 c)
    (hq0 : dat.q 0 = fullShare.left) (hq1 : dat.q 1 = fullShare.right)
    (hq : ∀ w : Fin cfg1.W, 2 ≤ w.val → dat.q w = fullShare)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs spec1 c V : sProp 𝕄) = dat.arrays G := by
  have hR : dat.arrays G = bigSep Finset.univ fun w : Fin 8 =>
      ((c : Thread nD τ).loc (Pipeline.arrRef spec1 w) ↦{dat.share w} V (Pipeline.arrRef spec1 w) : sProp 𝕄) := by
    unfold Pipeline.Dat.arrays
    exact bigSep_congr fun w _ => by rw [(arr_whole1 w).set_eq_univ, hG w]
  have s0 : dat.share 0 = fullShare.left := hq0
  have s1 : dat.share 1 = fullShare.right := hq1
  have s2 : dat.share 2 = fullShare := hq 2 (by decide)
  have s3 : dat.share 3 = fullShare := hq 3 (by decide)
  have s4 : dat.share 4 = fullShare := hq 4 (by decide)
  have h35 : ((c : Thread nD τ).loc main_v35 ↦{fullShare} V main_v35 : sProp 𝕄)
      = iprop(((c : Thread nD τ).loc main_v35 ↦{fullShare.left} V main_v35)
          ∗ ((c : Thread nD τ).loc main_v35 ↦{fullShare.right} V main_v35)) :=
    have h := pointsTo_share (ℓ := (c : Thread nD τ).loc main_v35) (I := Finset.univ) (f := V main_v35)
      (PosShare.mem_left_op_right fullShare)
    BI.equiv_iff.mp ⟨h.1, h.2⟩
  rw [hR, bigSep_W1, s0, s1, s2, s3, s4]
  unfold Pipeline.arrBufs
  rw [image_arrRef1, bigSep_insert (by decide), bigSep_insert (by decide), bigSep_insert (by decide),
    bigSep_insert (by decide), bigSep_insert (by decide), bigSep_insert (by decide), bigSep_singleton]
  rw [h35]
  have assoc : ∀ A B R : sProp 𝕄, iprop((A ∗ B) ∗ R) = iprop(A ∗ B ∗ R) := fun _ _ _ =>
    BI.Entails.antisymm BI.sep_assoc BI.sep_assoc'
  exact assoc _ _ _

theorem entry1 {c : Dev nD} (dat : Pipeline.Dat τ (Elt F) Unit ℕ (UR sig nD τ) ℕ cfg1 c)
    (V : (b : Ref sig .tc) → Buf (Elt F) ((c : Thread nD τ).loc b))
    (hA : ∀ w, dat.A w = V (Pipeline.arrRef spec1 w))
    (hq0 : dat.q 0 = fullShare.left) (hq1 : dat.q 1 = fullShare.right)
    (hq : ∀ w : Fin cfg1.W, 2 ≤ w.val → dat.q w = fullShare) :
    (unscopedBufs c V : sProp 𝕄) ⊢ iprop(dat.arrays (dat.arrAt · 0) ∗ Pipeline.unscopedRest spec1 c V) := by
  rw [Pipeline.PerCore.unscopedBufs_split₀ (fun _ (_ : Unit) => cfg1) () c winFacts₀1.arr_unscoped V,
    arrBufs_eq_arrays dat hq0 hq1 hq V (dat.arrAt · 0) hA]

theorem exit1 {c : Dev nD} (dat : Pipeline.Dat τ (Elt F) Unit ℕ (UR sig nD τ) ℕ cfg1 c)
    (V V' : (b : Ref sig .tc) → Buf (Elt F) ((c : Thread nD τ).loc b))
    (hA : ∀ w, dat.A w = V (Pipeline.arrRef spec1 w))
    (hq0 : dat.q 0 = fullShare.left) (hq1 : dat.q 1 = fullShare.right)
    (hq : ∀ w : Fin cfg1.W, 2 ≤ w.val → dat.q w = fullShare)
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [Pipeline.PerCore.unscopedBufs_split₀ (fun _ (_ : Unit) => cfg1) () c winFacts₀1.arr_unscoped V',
    arrBufs_eq_arrays dat hq0 hq1 hq V' (dat.arrAt · cfg1.N) hF]
  refine sep_mono .rfl (Entails.of_eq ?_)
  unfold Pipeline.unscopedRest
  exact bigSep_congr fun b hb => by rw [hrest b (Finset.mem_sdiff.mp hb).2]

end Cert.KernelIdeal.R1Share
end
-- ==== Proof.Main.lean ====
import proofs.«407440_j80281528697035_2_alg».proof.Proof.Gen.KernelIdeal.Launch
import proofs.«407440_j80281528697035_2_alg».proof.Proof.Gen.KernelIdeal.Skeleton
import proofs.«407440_j80281528697035_2_alg».proof.Proof.Gen.KernelIdeal.Points
import proofs.«407440_j80281528697035_2_alg».proof.Proof.Gen.KernelIdeal.Regions
import proofs.«407440_j80281528697035_2_alg».proof.Proof.Carry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«407440_j80281528697035_2_alg».proof.Proof.R0
import proofs.«407440_j80281528697035_2_alg».proof.Proof.R1
import proofs.«407440_j80281528697035_2_alg».proof.Proof.R2
import proofs.«407440_j80281528697035_2_alg».proof.Proof.R1Share

set_option backward.isDefEq.respectTransparency.types false

noncomputable section

namespace Cert.KernelIdeal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

theorem ne_of_notImg {α β : Type} [Fintype α] [DecidableEq β] {f : α → β} {b : β} (hb : b ∉ Finset.univ.image f) (w : α) : f w ≠ b :=
  fun e => hb (Finset.mem_image.mpr ⟨w, Finset.mem_univ _, e⟩)

def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b

def W6 (c : Dev nD) : Valuation τ sig (Elt F) :=
  Function.update (Function.update (Function.update (W5 m ρ c)
    (Proc.devRef .tc main_v37_0) ((R1.dat1 (V5 m ρ) c).arrAt 5 cfg1.N))
    (Proc.devRef .tc main_v37_1) ((R1.dat1 (V5 m ρ) c).arrAt 6 cfg1.N))
    (Proc.devRef .tc main_v37_2) ((R1.dat1 (V5 m ρ) c).arrAt 7 cfg1.N)
abbrev V6 : (c : Dev nD) → (b : Ref sig .tc) → Buf (Elt F) ((c : Thread nD τ).loc b) := fun c b => W6 m ρ c b
theorem W6_of_ne (c : Dev nD) (b : Ref sig .tc) (h0 : b ≠ main_v37_0) (h1 : b ≠ main_v37_1) (h2 : b ≠ main_v37_2) :
    W6 m ρ c (Proc.devRef .tc b) = W5 m ρ c (Proc.devRef .tc b) := by
  unfold W6
  rw [Function.update_of_ne (StableHlo.devRef_ne_of_ne h2), Function.update_of_ne (StableHlo.devRef_ne_of_ne h1),
    Function.update_of_ne (StableHlo.devRef_ne_of_ne h0)]
theorem W6_5 (c : Dev nD) : W6 m ρ c (Proc.devRef .tc main_v37_0) = (R1.dat1 (V5 m ρ) c).arrAt 5 cfg1.N := by
  unfold W6
  rw [Function.update_of_ne (StableHlo.devRef_ne_of_ne (by decide)), Function.update_of_ne (StableHlo.devRef_ne_of_ne (by decide)),
    Function.update_self]
theorem W6_6 (c : Dev nD) : W6 m ρ c (Proc.devRef .tc main_v37_1) = (R1.dat1 (V5 m ρ) c).arrAt 6 cfg1.N := by
  unfold W6
  rw [Function.update_of_ne (StableHlo.devRef_ne_of_ne (by decide)), Function.update_self]
theorem W6_7 (c : Dev nD) : W6 m ρ c (Proc.devRef .tc main_v37_2) = (R1.dat1 (V5 m ρ) c).arrAt 7 cfg1.N := by
  unfold W6
  rw [Function.update_self]
theorem arrIn1 (c : Dev nD) (w : Fin cfg1.W) (hw : (cfg1.win w).isOut = false)
    (h : Pipeline.arrRef spec1 w ≠ main_v37_0 ∧ Pipeline.arrRef spec1 w ≠ main_v37_1 ∧ Pipeline.arrRef spec1 w ≠ main_v37_2) :
    (R1.dat1 (V5 m ρ) c).arrAt w cfg1.N = V6 m ρ c (Pipeline.arrRef spec1 w) :=
  (((R1.dat1 (V5 m ρ) c).arrAt_in w hw _).trans (R1.A_eq1 (V5 m ρ) c w)).trans (W6_of_ne m ρ c _ h.1 h.2.1 h.2.2).symm
theorem hF1 (c : Dev nD) (w : Fin cfg1.W) : (R1.dat1 (V5 m ρ) c).arrAt w cfg1.N = V6 m ρ c (Pipeline.arrRef spec1 w) := by
  fin_cases w
  iterate 5 exact arrIn1 m ρ c _ rfl (by decide)
  · exact (W6_5 m ρ c).symm
  · exact (W6_6 m ρ c).symm
  · exact (W6_7 m ρ c).symm
theorem hrest1 (c : Dev nD) : ∀ b, b ∉ Finset.univ.image (Pipeline.arrRef spec1) → V6 m ρ c b = V5 m ρ c b :=
  fun b hb => W6_of_ne m ρ c b (ne_of_notImg hb 5).symm (ne_of_notImg hb 6).symm (ne_of_notImg hb 7).symm

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (R2.dat2 (V7 m ρ) c).arrAt w cfg2.N
theorem W8_arr (c : Dev nD) (w : Fin cfg2.W) :
    W8 m ρ c (Proc.devRef .tc (Pipeline.arrRef spec2 w)) = (R2.dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b

def pdats : (p : Fin 3) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V5 m ρ) c
  | ⟨2, _⟩ => fun c => R2.dat2 (V7 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev cf (p : Fin 3) := Pipeline.pin (pcfgs (F := F)) adm p

def mkReg (p : Fin 3) (win : Pipeline.WinFacts₀ (pcfgs (F := F) p).spec)
    (bp : ∀ w : Fin (cf (F := F) p).W, 0 < ((cf (F := F) p).spec w).block.numel)
    (sw : ∀ (w : Fin (cf (F := F) p).W) (s : Fin ((cf (F := F) p).spec w).nbuf), (((cf (F := F) p).spec w).stage s).IsWhole)
    (hb : ∀ c, BodyObligation (pdats m ρ p c) (defs₀ (F := F)) 𝒱₀ () Set.univ)
    (hw : ∀ c t, (pdats m ρ p c).owed t = 0) (hr : ∀ c x, x ∈ (pdats m ρ p c).recorded 0)
    (hK : (pcfgs (F := F) p).pre.K = 0) (Wa Wb : Dev nD → Valuation τ sig (Elt F))
    (hs : ∀ c, (unscopedBufs c (fun b => Wa c b) : sProp 𝕄)
      ⊢ iprop((pdats m ρ p c).arrays ((pdats m ρ p c).arrAt · 0) ∗ Pipeline.unscopedRest (cf (F := F) p).spec c fun b => Wa c b))
    (h0 : ∀ c, (pdats m ρ p c).Φ 0 = Pipeline.ΦA (cf (F := F) p).spec c)
    (hN : ∀ c, (pdats m ρ p c).Φ (Fin.last _) ⊢ Pipeline.ΦA (cf (F := F) p).spec c)
    (hj : ∀ c, iprop((pdats m ρ p c).arrays ((pdats m ρ p c).arrAt · (cf (F := F) p).N) ∗ Pipeline.unscopedRest (cf (F := F) p).spec c fun b => Wa c b)
      ⊢ (unscopedBufs c (fun b => Wb c b) : sProp 𝕄)) :
    Pipeline.RegionSeg (pcfgs (F := F)) adm (pdats m ρ) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p hw
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (cf (F := F) p).spec c fun b => Wa c b
  hentry c := by
    have hs := hs c
    rw [Pipeline.unscopedBufs_held] at hs
    rw [Pipeline.ownSems0_none]
    unfold Pipeline.Dat.owesAt Pipeline.owesWithin
    rw [hw c 0]
    iintro ⟨⟨Hub, Hp, HO⟩, -, -⟩
    ihave H := hs $$ Hub
    icases H with ⟨Ha, Hrest⟩
    imodintro
    isplitl [Ha]; · iexact Ha
    isplitr
    · unfold Pipeline.prefHeld
      haveI : IsEmpty (Fin (pcfgs (F := F) p).pre.K) := by rw [hK]; infer_instance
      rw [Finset.univ_eq_empty, BI.bigSep_empty]; iempintro
    isplitl [HO]
    · icases HO with ⟨%W, HO⟩; iexists W; isplitr; · ipureintro; exact fun x _ => Or.inl (hr c x)
      iexact HO
    isplitl [Hp]; · iexact Hp
    iexact Hrest
  hin c := by
    rw [h0 c]; unfold Pipeline.ΦA
    iintro ⟨Hp, -, Hr⟩
    isplitl [Hr]; · iexact Hr
    iexact Hp
  hout c := by
    rw [Pipeline.ownSems0_none]
    refine (hN c).trans ?_
    unfold Pipeline.ΦA
    iintro ⟨Hr, Hp⟩
    isplitl [Hp]; · iexact Hp
    isplitr; · iempintro
    iexact Hr
  hexit c := by
    have hj := hj c
    rw [Pipeline.unscopedBufs_held] at hj
    unfold Pipeline.Dat.owesAt Pipeline.owesWithin
    rw [hw c]
    iintro ⟨Ha, HO, HY, Hrest⟩
    imodintro
    isplitl [Ha Hrest]
    · iapply hj; isplitl [Ha] <;> iassumption
    isplitl [HY]; · iexact HY
    icases HO with ⟨%W, -, HO⟩; iexists W; iexact HO

def reg0 : Pipeline.RegionSeg (pcfgs (F := F)) adm (pdats m ρ) () defs₀ 𝒱₀ L lv 0 :=
  mkReg m ρ 0 launch0.win.to₀ launch0.block_pos launch0.stage_whole (R0.body_obligation0 (V1 m ρ)) (fun _ _ => rfl) (fun _ _ => trivial) rfl
    (W1 m ρ) (W2 m ρ)
    (fun c => Pipeline.arrays_of_unscopedBufs (p := 0) (pcfgs (F := F)) adm (pdats m ρ) launch0.win launch0.arr_whole c
      ((pdats m ρ 0 c).share_full fun _ => rfl) (V1 m ρ c) fun _ => rfl)
    (fun _ => rfl) (fun _ => .rfl)
    (fun c => Pipeline.unscopedBufs_of_arrays (p := 0) (pcfgs (F := F)) adm launch0.win launch0.arr_whole c (pdats m ρ) ((pdats m ρ 0 c).share_full fun _ => rfl)
      (V1 m ρ c) (V2 m ρ c) ((pdats m ρ 0 c).arrAt · cfg0.N) (fun w => (W2_arr m ρ c w).symm) fun b hb => W2_of_ne m ρ c b (ne_of_notImg hb))

theorem hq1 (c : Dev nD) (w : Fin cfg1.W) (hw : 2 ≤ w.val) : (pdats m ρ 1 c).q w = fullShare := by
  fin_cases w <;> first | rfl | exact absurd hw (by decide)

def reg1 : Pipeline.RegionSeg (pcfgs (F := F)) adm (pdats m ρ) () defs₀ 𝒱₀ L lv 1 :=
  mkReg m ρ 1 winFacts₀1 block_pos1 stage_whole1 (R1.body_obligation1 (V5 m ρ)) (fun _ _ => rfl) (fun _ _ => trivial) rfl
    (W5 m ρ) (W6 m ρ)
    (fun c => R1Share.entry1 (F := F) (pdats m ρ 1 c) (V5 m ρ c) (R1.A_eq1 (V5 m ρ) c) rfl rfl (hq1 m ρ c))
    (R1.Phi1_zero (V5 m ρ)) (R1.hout1 (V5 m ρ))
    (fun c => R1Share.exit1 (F := F) (pdats m ρ 1 c) (V5 m ρ c) (V6 m ρ c) (R1.A_eq1 (V5 m ρ) c) rfl rfl (hq1 m ρ c) (hF1 m ρ c) (hrest1 m ρ c))

def reg2 : Pipeline.RegionSeg (pcfgs (F := F)) adm (pdats m ρ) () defs₀ 𝒱₀ L lv 2 :=
  mkReg m ρ 2 launch2.win.to₀ launch2.block_pos launch2.stage_whole (R2.body_obligation2 (V7 m ρ)) (fun _ _ => rfl) (fun _ _ => trivial) rfl
    (W7 m ρ) (W8 m ρ)
    (fun c => Pipeline.arrays_of_unscopedBufs (p := 2) (pcfgs (F := F)) adm (pdats m ρ) launch2.win launch2.arr_whole c
      ((pdats m ρ 2 c).share_full fun _ => rfl) (V7 m ρ c) fun _ => rfl)
    (R2.Phi2_zero (V7 m ρ)) (R2.hout2 (V7 m ρ))
    (fun c => Pipeline.unscopedBufs_of_arrays (p := 2) (pcfgs (F := F)) adm launch2.win launch2.arr_whole c (pdats m ρ) ((pdats m ρ 2 c).share_full fun _ => rfl)
      (V7 m ρ c) (V8 m ρ c) ((pdats m ρ 2 c).arrAt · cfg2.N) (fun w => (W8_arr m ρ c w).symm) fun b hb => W8_of_ne m ρ c b (ne_of_notImg hb))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]

theorem main_run (c : Dev nD) : main (F := F) c = Pipeline.Seg.run (segs m ρ) := (main_chain c).trans (by chain_rfl)

theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((R0.dat0 (V1 m ρ) c).arrAt_in w (h w rfl) _).trans (R0.A_eq0 (V1 m ρ) c w))
  · exact W2_of_ne m ρ c r fun w e => hr ⟨w, e⟩

theorem W8_kept (c : Dev nD) (r : Ref sig .tc)
    (h : (∀ w, Pipeline.arrRef spec0 w = r → (cfg0.win w).isOut = false) ∧ r ∉ hostOps0_W ∧ r ∉ hostOps1_W ∧ r ∉ hostOps1_1_W
      ∧ r ∉ hostOps1_2_W ∧ r ∉ hostOps2_W ∧ r ≠ main_v37_0 ∧ r ≠ main_v37_1 ∧ r ≠ main_v37_2 ∧ ∀ w, Pipeline.arrRef spec2 w ≠ r) :
    W8 m ρ c (Proc.devRef .tc r) = m ((c : Thread nD τ).loc r) := by
  obtain ⟨h2, ha0, ha1, ha11, ha12, ha2, h370, h371, h372, hr2⟩ := h
  exact (W8_of_ne m ρ c r hr2).trans <| (StableHlo.after_of_writes_sub hostOps2 _ hostOps2_writes ha2).trans <|
    (W6_of_ne m ρ c r h370 h371 h372).trans <| (StableHlo.after_of_writes_sub hostOps1_2 _ hostOps1_2_writes ha12).trans <|
    (StableHlo.after_of_writes_sub hostOps1_1 _ hostOps1_1_writes ha11).trans <| (StableHlo.after_of_writes_sub hostOps1 _ hostOps1_writes ha1).trans <|
    (W2_keep m ρ c r h2).trans <| StableHlo.after_of_writes_sub hostOps0 _ hostOps0_writes ha0

theorem W8_result (c : Dev nD) : W8 m ρ c (Proc.devRef .tc main_v39_0) = (R2.dat2 (V7 m ρ) c).arrAt 5 cfg2.N :=
  W8_arr m ρ c 5

theorem run_result : θ_run defs (onTc (τ := τ) (main (F := F))) ⟨m, fun _ => 0, ρ⟩ (fun r => ∀ c : Dev nD,
      r.2.mem ((c.tc : Thread nD τ).loc main_v39_0) = W8 m ρ c (Proc.devRef .tc main_v39_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
    have k := fun (r : Ref sig .tc) hu hk => (h c _ (mem_uc r hu)).trans (W8_kept m ρ c r hk)
    ⟨h c _ (mem_uc main_v39_0 (by decide)), k main_arg0 (by decide) (by decide), k main_arg1 (by decide) (by decide),
      k main_arg2 (by decide) (by decide), k main_arg3 (by decide) (by decide), k main_arg4 (by decide) (by decide),
      k main_arg5 (by decide) (by decide), k main_arg6 (by decide) (by decide), k main_arg7 (by decide) (by decide)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Main

end
-- ==== Proof.Spec.lean ====
import Idealize.ShloMosaic.PureOps.Ideal
import Idealize.ShloMosaic.Lib.ValueIdx

noncomputable section

open scoped BigOperators

namespace Cert.Spec

open Idealize.ShloMosaic

abbrev z0 : EReal := Ideal.ofBits .f32 0x00000000#32
abbrev lg2 : EReal := Ideal.ofBits .f32 0x3F317218#32
abbrev lg3 : EReal := Ideal.ofBits .f32 0x3F8C9F54#32
abbrev lg4 : EReal := Ideal.ofBits .f32 0x3FB17218#32

def layer (h : Fin 4096 → Fin 128 → EReal) (W : Fin 128 → Fin 128 → EReal) (r : Fin 4096) (j : Fin 128) : EReal :=
  max (∑ k : Fin 128, h r k * W j k) z0

def layer0 (x : Fin 4096 → Fin 128 → EReal) (W : Fin 128 → Fin 128 → EReal) (b : Fin 128 → EReal)
    (r : Fin 4096) (j : Fin 128) : EReal :=
  max ((∑ k : Fin 128, x r k * W j k) + b j) z0

def mlp (x : Fin 4096 → Fin 128 → EReal) (W0 : Fin 128 → Fin 128 → EReal) (b0 : Fin 128 → EReal)
    (W1 W2 : Fin 128 → Fin 128 → EReal) (W3 : Fin 128 → EReal) (b3 : EReal) (r : Fin 4096) : EReal :=
  (∑ k : Fin 128, layer (layer (layer0 x W0 b0) W1) W2 r k * W3 k) + b3

def wrap (v : BitVec 32) : BitVec 32 := if v.slt 0#32 then v + 4096#32 else v

def clampNode (v : BitVec 32) : Fin 4096 := ⟨min v.toInt.toNat 4095, by omega⟩

def step1 (a : Fin 4096 → EReal) (row col : Fin 131072 → BitVec 32) (n : Fin 4096) : EReal :=
  ∑ e ∈ Finset.univ.filter (fun e : Fin 131072 => (row e).toInt = (n.val : ℤ)), a (clampNode (wrap (col e))) * lg2

def boolMul (A B : Fin 4096 → Fin 4096 → EReal) (i j : Fin 4096) : EReal :=
  if z0 < ∑ z : Fin 4096, A i z * B z j then 1 else 0

def matVec (A : Fin 4096 → Fin 4096 → EReal) (a : Fin 4096 → EReal) (i : Fin 4096) : EReal :=
  ∑ j : Fin 4096, A i j * a j

def hops (a0 : Fin 4096 → EReal) (Af : Fin 4096 → Fin 4096 → EReal) (row col : Fin 131072 → BitVec 32)
    (n : Fin 4096) : EReal :=
  let s1 := step1 a0 row col
  let a1 := fun i => a0 i + s1 i
  let B2 := boolMul Af Af
  let s2 := fun i => s1 i + lg3 * matVec B2 a1 i
  let a2 := fun i => a1 i + s2 i
  let B3 := boolMul B2 Af
  let s3 := fun i => s2 i + lg4 * matVec B3 a2 i
  a2 n + s3 n

end Cert.Spec

end
-- ==== Proof.Adj.lean ====
import proofs.«407440_j80281528697035_2_alg».proof.Proof.Spec
import Idealize.ShloMosaic.PureOps

noncomputable section

namespace Cert.Spec

open Idealize.ShloMosaic

def pairIdx (row col : Fin 131072 → BitVec 32) : IVec ⟨2, ![131072, 2]⟩ 32 :=
  fun k => if (k 1).val = 0 then wrap (row (k 0)) else wrap (col (k 0))

def adjOf (d : ScatterDims ⟨2, ![4096, 4096]⟩ ⟨2, ![131072, 2]⟩ ⟨1, ![131072]⟩) (idx : IVec ⟨2, ![131072, 2]⟩ 32) :
    Fin 4096 → Fin 4096 → EReal :=
  fun i j => Host.scatter d (fun _ b => b) (fun _ => (0 : EReal)) idx (fun _ => (1 : EReal)) (ValueIdx.ix2 i j)

end Cert.Spec

end
-- ==== Proof.LibRows.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_eq_of_coords {α : Type} {s si u : Shape} {w : ℕ} (d : GatherDims s si u) (x : s.Idx → α) (idx : IVec si w)
    (j : u.Idx) (i : s.Idx) (h : ∀ a, d.start j idx a + d.batchCoord j a + d.offCoord j a = (i a).val) :
    Host.gather d x idx j = x i := by
  unfold Host.gather
  exact congrArg x (funext fun a => Fin.ext (h a))

theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  refine gather_eq_of_coords _ x idx _ _ (Fin.forall_fin_two.mpr ⟨?_, ?_⟩)
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := Shape.idx_ext₂ rfl rfl
    rw [hsi]
    rfl
  · rw [GatherDims.batchCoord_eq_zero _ _ _ List.not_mem_nil]
    have hs : (rowGatherDims N E C wf).start (ix2 e c) idx 1 = 0 := by
      unfold GatherDims.start
      rw [dif_neg (by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hb
      have e : (d.start j idx a + (d.window j a : ℤ)).toNat = (i a).val := congrArg (fun f : s.Idx => (f a).val) (Option.some.inj h)
      have := (hb a).1
      omega
    · exact absurd h (by simp)
  · intro h
    rw [dif_pos fun a => by rw [h a]; exact ⟨Int.natCast_nonneg _, Int.ofNat_lt.mpr (i a).isLt⟩]
    exact congrArg some (funext fun a => Fin.ext (by show (d.start j idx a + (d.window j a : ℤ)).toNat = (i a).val; rw [h a]; omega))

private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := Shape.idx_ext₂ rfl rfl
    rw [hsi]
  have hs1 : (rowScatterDims N E C wf).start (ix2 e c') idx (1 : Fin 2) = 0 := by
    unfold ScatterDims.start
    rw [dif_neg (by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  rw [resultIdx?_eq_some_iff, Fin.forall_fin_two, hs0, hw0, hs1, hw1]
  show (idx (ix2 e (0 : Fin 1))).toInt + ((0 : ℕ) : ℤ) = (n.val : ℤ) ∧ (0 : ℤ) + (c'.val : ℤ) = (c.val : ℤ) ↔ _
  exact ⟨fun h => ⟨by omega, Fin.ext (by omega)⟩, fun h => ⟨by omega, by rw [h.2]; omega⟩⟩

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.Ref.lean ====
import proofs.«407440_j80281528697035_2_alg».proof.Proof.RefRunP
import proofs.«407440_j80281528697035_2_alg».proof.Proof.RefReadP
import proofs.«407440_j80281528697035_2_alg».proof.Proof.Spec
import proofs.«407440_j80281528697035_2_alg».proof.Proof.Adj
import proofs.«407440_j80281528697035_2_alg».proof.Proof.LibRows

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

theorem select_wrap (v : BitVec 32) :
    Scalar.select (IntOp.cmpi .slt v 0#32) (IntOp.addi v 4096#32) v = Cert.Spec.wrap v := by
  unfold Cert.Spec.wrap Scalar.select IntOp.cmpi IntOp.addi
  cases h : v.slt 0#32 <;> simp

theorem uitofp_ogt (s : Ideal .f32) :
    FloatOps.uitofp (F := Ideal) .f32 (FloatOps.cmpf (F := Ideal) .ogt s (Ideal.ofBits .f32 0x00000000#32))
      = if Cert.Spec.z0 < s then (1 : EReal) else 0 := by
  show (((BitVec.ofBool (decide (Cert.Spec.z0 < s))).toNat : ℝ) : EReal) = _
  by_cases h : Cert.Spec.z0 < s
  · rw [if_pos h, decide_eq_true h]; simp
  · rw [if_neg h, decide_eq_false h]; simp

theorem scatter_set_map {α β : Type} {s si u : Shape} {w : ℕ} (g : α → β) (d : ScatterDims s si u)
    (x : s.Idx → α) (idx : IVec si w) (upd : u.Idx → α) :
    (fun i => g (Host.scatter d (fun _ b => b) x idx upd i))
      = Host.scatter d (fun _ b => b) (fun j => g (x j)) idx (fun j => g (upd j)) := by
  unfold Host.scatter
  generalize List.finRange u.numel = l
  induction l generalizing x with
  | nil => rfl
  | cons n l ih =>
    simp only [List.foldl_cons]
    rw [ih]
    congr 1
    cases h : d.resultIdx? (u.rowMajor.symm n) idx with
    | none => rfl
    | some k =>
      funext i'
      by_cases hi : i' = k <;> simp [hi]

variable (x0 : (⟨S4096x128, .f32⟩ : BufTy).Contents (Elt Ideal)) (x1 : (⟨S2x131072, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S1x128, .f32⟩ : BufTy).Contents (Elt Ideal))
  (x7 : (⟨S1, .f32⟩ : BufTy).Contents (Elt Ideal))

abbrev feat : Fin 4096 → Fin 128 → EReal := fun r k => x0 (ix2 r k)
abbrev mat (x : (⟨S128x128, .f32⟩ : BufTy).Contents (Elt Ideal)) : Fin 128 → Fin 128 → EReal := fun j k => x (ix2 j k)
abbrev bias0 : Fin 128 → EReal := fun j => x3 (ix1 j)
abbrev lastRow : Fin 128 → EReal := fun k => x6 (ix2 (0 : Fin 1) k)
abbrev bias3 : EReal := x7 (ix1 (0 : Fin 1))

abbrev rowOf : Fin 131072 → BitVec 32 := fun e => x1 (ix2 (0 : Fin 2) e)
abbrev colOf : Fin 131072 → BitVec 32 := fun e => x1 (ix2 (1 : Fin 2) e)

theorem lidx1 (r : Fin 4096) (j k : Fin 128) : lidx_main_v1 (ix2 r j) k = ix2 r k := eq_ix2 _
theorem ridx1 (r : Fin 4096) (j k : Fin 128) : idx_main_v0 (ridx_main_v1 (ix2 r j) k) = ix2 j k := eq_ix2 _
theorem idx3 (r : Fin 4096) (j : Fin 128) : idx_main_v2 (idx_main_v3 (ix2 r j)) = ix1 j := eq_ix1 _
theorem lidx7 (r : Fin 4096) (j k : Fin 128) : lidx_main_v7 (ix2 r j) k = ix2 r k := eq_ix2 _
theorem ridx7 (r : Fin 4096) (j k : Fin 128) : idx_main_v6 (ridx_main_v7 (ix2 r j) k) = ix2 j k := eq_ix2 _
theorem lidx10 (r : Fin 4096) (j k : Fin 128) : lidx_main_v10 (ix2 r j) k = ix2 r k := eq_ix2 _
theorem ridx10 (r : Fin 4096) (j k : Fin 128) : idx_main_v9 (ridx_main_v10 (ix2 r j) k) = ix2 j k := eq_ix2 _
theorem lidx13 (n : Fin 4096) (k : Fin 128) : lidx_main_v13 (ix2 n (0 : Fin 1)) k = ix2 n k := eq_ix2 _
theorem ridx13 (n : Fin 4096) (k : Fin 128) : idx_main_v12 (ridx_main_v13 (ix2 n (0 : Fin 1)) k) = ix2 (0 : Fin 1) k := eq_ix2 _
theorem idx15 (n : Fin 4096) : idx_main_v14 (idx_main_v15 (ix2 n (0 : Fin 1))) = ix1 (0 : Fin 1) := eq_ix1 _
theorem idxRow (e : Fin 131072) : idx_main_v17 (idx_main_v18 (idx_main_v31 (ix2 e (0 : Fin 1)))) = ix2 (0 : Fin 2) e :=
  Shape.idx_ext₂ rfl (Nat.mod_eq_of_lt e.isLt)
theorem idxCol (e : Fin 131072) : idx_main_v19 (idx_main_v20 (idx_main_v26 (ix2 e (0 : Fin 1)))) = ix2 (1 : Fin 2) e :=
  Shape.idx_ext₂ rfl (Nat.mod_eq_of_lt e.isLt)
theorem lidx51 (i j k : Fin 4096) : lidx_main_v51 (ix2 i j) k = ix2 i k := eq_ix2 _
theorem ridx51 (i j k : Fin 4096) : ridx_main_v51 (ix2 i j) k = ix2 k j := eq_ix2 _
theorem lidx55 (n k : Fin 4096) : lidx_main_v55 (ix2 n (0 : Fin 1)) k = ix2 n k := eq_ix2 _
theorem ridx55 (n k : Fin 4096) : ridx_main_v55 (ix2 n (0 : Fin 1)) k = ix2 k (0 : Fin 1) := eq_ix2 _
theorem lidx60 (i j k : Fin 4096) : lidx_main_v60 (ix2 i j) k = ix2 i k := eq_ix2 _
theorem ridx60 (i j k : Fin 4096) : ridx_main_v60 (ix2 i j) k = ix2 k j := eq_ix2 _
theorem lidx64 (n k : Fin 4096) : lidx_main_v64 (ix2 n (0 : Fin 1)) k = ix2 n k := eq_ix2 _
theorem ridx64 (n k : Fin 4096) : ridx_main_v64 (ix2 n (0 : Fin 1)) k = ix2 k (0 : Fin 1) := eq_ix2 _

theorem hidden0 (r : Fin 4096) (j : Fin 128) :
    val_main_v5 (F := Ideal) x0 x2 x3 (ix2 r j) = Cert.Spec.layer0 (feat x0) (mat x2) (bias0 x3) r j := by
  rw [val_main_v5_apply, val_main_v4_apply, val_main_v1_apply, val_main_v3_apply, val_main_v2_apply,
    val_main_call0_v0_apply, val_main_call0_cst_apply]
  simp only [val_main_v0_apply, lidx1, ridx1, idx3, Ideal.maximumf_def, Ideal.addf_def, Ideal.ofBits_def]
  rfl

theorem hidden1 (r : Fin 4096) (j : Fin 128) :
    val_main_v8 (F := Ideal) x0 x2 x3 x4 (ix2 r j)
      = Cert.Spec.layer (Cert.Spec.layer0 (feat x0) (mat x2) (bias0 x3)) (mat x4) r j := by
  rw [val_main_v8_apply, val_main_v7_apply, val_main_call1_v0_apply, val_main_call1_cst_apply]
  simp only [val_main_v6_apply, lidx7, ridx7, hidden0, Ideal.maximumf_def, Ideal.ofBits_def]
  rfl

theorem hidden2 (r : Fin 4096) (j : Fin 128) :
    val_main_v11 (F := Ideal) x0 x2 x3 x4 x5 (ix2 r j)
      = Cert.Spec.layer (Cert.Spec.layer (Cert.Spec.layer0 (feat x0) (mat x2) (bias0 x3)) (mat x4)) (mat x5) r j := by
  rw [val_main_v11_apply, val_main_v10_apply, val_main_call2_v0_apply, val_main_call2_cst_apply]
  simp only [val_main_v9_apply, lidx10, ridx10, hidden1, Ideal.maximumf_def, Ideal.ofBits_def]
  rfl

abbrev node0 : Fin 4096 → EReal :=
  Cert.Spec.mlp (feat x0) (mat x2) (bias0 x3) (mat x4) (mat x5) (lastRow x6) (bias3 x7)

theorem node0_eq (n : Fin 4096) :
    val_main_v16 (F := Ideal) x0 x2 x3 x4 x5 x6 x7 (ix2 n (0 : Fin 1)) = node0 x0 x2 x3 x4 x5 x6 x7 n := by
  rw [val_main_v16_apply, val_main_v13_apply, val_main_v15_apply, val_main_v14_apply]
  simp only [val_main_v12_apply, lidx13, ridx13, idx15, hidden2, Ideal.addf_def]
  rfl

theorem wrappedCol (e : Fin 131072) :
    val_main_v26 (F := Ideal) x1 (ix2 e (0 : Fin 1)) = Cert.Spec.wrap (colOf x1 e) := by
  rw [val_main_v26_apply, val_main_v25_apply, val_main_v22_apply, val_main_v24_apply, val_main_v21_apply, val_main_c_apply,
    val_main_v23_apply, val_main_c_0_apply, val_main_v20_apply, val_main_v19_apply, idxCol]
  exact select_wrap _

theorem gathered (e : Fin 131072) :
    val_main_v27 (F := Ideal) x0 x1 x2 x3 x4 x5 x6 x7 (ix2 e (0 : Fin 1))
      = node0 x0 x2 x3 x4 x5 x6 x7 (Cert.Spec.clampNode (Cert.Spec.wrap (colOf x1 e))) := by
  unfold val_main_v27
  show Host.gather (rowGatherDims 4096 131072 1 Facts₀.gather_S4096x1_S131072x1_S131072x1_1_0_n_n_0_1_11_wf) _ _
    (ix2 e (0 : Fin 1)) = _
  rw [rowGather_apply (by norm_num), node0_eq]
  simp only [wrappedCol]
  rfl

abbrev step1 : Fin 4096 → EReal := Cert.Spec.step1 (node0 x0 x2 x3 x4 x5 x6 x7) (rowOf x1) (colOf x1)

theorem step1_eq (n : Fin 4096) :
    val_main_v32 (F := Ideal) x0 x1 x2 x3 x4 x5 x6 x7 (ix2 n (0 : Fin 1)) = step1 x0 x1 x2 x3 x4 x5 x6 x7 n := by
  unfold val_main_v32
  show Host.scatterAdd (F := Ideal) (rowScatterDims 4096 131072 1 Facts₀.scatter_S4096x1_S131072x1_S131072x1_1_0_0_1_wf) _ _ _
    (ix2 n (0 : Fin 1)) = _
  rw [rowScatterAdd_apply, val_main_v30_apply, val_main_cst_1_apply]
  simp only [val_main_v31_apply, val_main_v18_apply, val_main_v17_apply, idxRow, val_main_v29_apply, gathered,
    val_main_v28_apply, val_main_cst_apply, Ideal.mulf_def, Ideal.ofBits_def, Ideal.ofBits_zero_f32, zero_add]
  rfl

abbrev node1 : Fin 4096 → EReal := fun i => node0 x0 x2 x3 x4 x5 x6 x7 i + step1 x0 x1 x2 x3 x4 x5 x6 x7 i

theorem node1_eq (n : Fin 4096) :
    val_main_v33 (F := Ideal) x0 x1 x2 x3 x4 x5 x6 x7 (ix2 n (0 : Fin 1)) = node1 x0 x1 x2 x3 x4 x5 x6 x7 n := by
  rw [val_main_v33_apply, node0_eq, step1_eq]
  rfl

abbrev refAdj : Fin 4096 → Fin 4096 → EReal := fun i j => val_main_v50 (F := Ideal) x1 (ix2 i j)

theorem pow2_eq (i j : Fin 4096) :
    val_main_v54 (F := Ideal) x1 (ix2 i j) = Cert.Spec.boolMul (refAdj x1) (refAdj x1) i j := by
  rw [val_main_v54_apply, val_main_v53_apply, val_main_v51_apply, val_main_v52_apply, val_main_cst_8_apply, Ideal.ofBits_def,
    uitofp_ogt]
  simp only [lidx51, ridx51]
  rfl

theorem pow3_eq (i j : Fin 4096) :
    val_main_v63 (F := Ideal) x1 (ix2 i j)
      = Cert.Spec.boolMul (Cert.Spec.boolMul (refAdj x1) (refAdj x1)) (refAdj x1) i j := by
  rw [val_main_v63_apply, val_main_v62_apply, val_main_v60_apply, val_main_v61_apply, val_main_cst_10_apply, Ideal.ofBits_def,
    uitofp_ogt]
  simp only [lidx60, ridx60, pow2_eq]
  rfl

abbrev step2 : Fin 4096 → EReal := fun i =>
  step1 x0 x1 x2 x3 x4 x5 x6 x7 i + Cert.Spec.lg3 * Cert.Spec.matVec (Cert.Spec.boolMul (refAdj x1) (refAdj x1)) (node1 x0 x1 x2 x3 x4 x5 x6 x7) i
abbrev node2 : Fin 4096 → EReal := fun i => node1 x0 x1 x2 x3 x4 x5 x6 x7 i + step2 x0 x1 x2 x3 x4 x5 x6 x7 i
abbrev step3 : Fin 4096 → EReal := fun i =>
  step2 x0 x1 x2 x3 x4 x5 x6 x7 i + Cert.Spec.lg4 * Cert.Spec.matVec (Cert.Spec.boolMul (Cert.Spec.boolMul (refAdj x1) (refAdj x1)) (refAdj x1)) (node2 x0 x1 x2 x3 x4 x5 x6 x7) i

theorem matVec2_eq (n : Fin 4096) :
    val_main_v55 (F := Ideal) x0 x1 x2 x3 x4 x5 x6 x7 (ix2 n (0 : Fin 1))
      = Cert.Spec.matVec (Cert.Spec.boolMul (refAdj x1) (refAdj x1)) (node1 x0 x1 x2 x3 x4 x5 x6 x7) n := by
  rw [val_main_v55_apply]
  simp only [lidx55, ridx55, pow2_eq, node1_eq]
  rfl

theorem step2_eq (n : Fin 4096) :
    val_main_v58 (F := Ideal) x0 x1 x2 x3 x4 x5 x6 x7 (ix2 n (0 : Fin 1)) = step2 x0 x1 x2 x3 x4 x5 x6 x7 n := by
  rw [val_main_v58_apply, step1_eq, val_main_v57_apply, val_main_v56_apply, val_main_cst_9_apply, matVec2_eq]
  rfl

theorem node2_eq (n : Fin 4096) :
    val_main_v59 (F := Ideal) x0 x1 x2 x3 x4 x5 x6 x7 (ix2 n (0 : Fin 1)) = node2 x0 x1 x2 x3 x4 x5 x6 x7 n := by
  rw [val_main_v59_apply, node1_eq, step2_eq]
  rfl

theorem matVec3_eq (n : Fin 4096) :
    val_main_v64 (F := Ideal) x0 x1 x2 x3 x4 x5 x6 x7 (ix2 n (0 : Fin 1))
      = Cert.Spec.matVec (Cert.Spec.boolMul (Cert.Spec.boolMul (refAdj x1) (refAdj x1)) (refAdj x1)) (node2 x0 x1 x2 x3 x4 x5 x6 x7) n := by
  rw [val_main_v64_apply]
  simp only [lidx64, ridx64, pow3_eq, node2_eq]
  rfl

theorem step3_eq (n : Fin 4096) :
    val_main_v67 (F := Ideal) x0 x1 x2 x3 x4 x5 x6 x7 (ix2 n (0 : Fin 1)) = step3 x0 x1 x2 x3 x4 x5 x6 x7 n := by
  rw [val_main_v67_apply, step2_eq, val_main_v66_apply, val_main_v65_apply, val_main_cst_11_apply, matVec3_eq]
  rfl

theorem ref_eq (n : Fin 4096) :
    val_main_v68 (F := Ideal) x0 x1 x2 x3 x4 x5 x6 x7 (ix2 n (0 : Fin 1))
      = Cert.Spec.hops (node0 x0 x2 x3 x4 x5 x6 x7) (refAdj x1) (rowOf x1) (colOf x1) n := by
  rw [val_main_v68_apply, node2_eq, step3_eq]
  rfl

theorem idxRow' (e : Fin 131072) : idx_main_v17 (idx_main_v18 (idx_main_v45 (ix2 e (0 : Fin 1)))) = ix2 (0 : Fin 2) e :=
  Shape.idx_ext₂ rfl (Nat.mod_eq_of_lt e.isLt)
theorem idxCol' (e : Fin 131072) : idx_main_v19 (idx_main_v20 (idx_main_v46 (ix2 e (0 : Fin 1)))) = ix2 (1 : Fin 2) e :=
  Shape.idx_ext₂ rfl (Nat.mod_eq_of_lt e.isLt)

theorem pairRow (e : Fin 131072) :
    val_main_v45 (F := Ideal) x1 (ix2 e (0 : Fin 1)) = Cert.Spec.wrap (rowOf x1 e) := by
  rw [val_main_v45_apply, val_main_v39_apply, val_main_v36_apply, val_main_v38_apply, val_main_v35_apply, val_main_c_3_apply,
    val_main_v37_apply, val_main_c_4_apply, val_main_v18_apply, val_main_v17_apply, idxRow']
  exact select_wrap _

theorem pairCol (e : Fin 131072) :
    val_main_v46 (F := Ideal) x1 (ix2 e (0 : Fin 1)) = Cert.Spec.wrap (colOf x1 e) := by
  rw [val_main_v46_apply, val_main_v44_apply, val_main_v41_apply, val_main_v43_apply, val_main_v40_apply, val_main_c_5_apply,
    val_main_v42_apply, val_main_c_6_apply, val_main_v20_apply, val_main_v19_apply, idxCol']
  exact select_wrap _

theorem pairIdx_eq : val_main_v47 (F := Ideal) x1 = Cert.Spec.pairIdx (rowOf x1) (colOf x1) := by
  funext k
  unfold val_main_v47 Cert.Spec.pairIdx
  have h2 : (k 1).val < 2 := (k 1).isLt
  by_cases h : (k 1).val = 0
  · rw [if_pos h, concatenate_pair_apply_left (1 : Fin S131072x2.rank) _ _ concatenates_S131072x1_S131072x1_S131072x2_d1 k rfl
      (ix2 (k 0) (0 : Fin 1)) (fun b => by match b with | ⟨0, _⟩ => rfl | ⟨1, _⟩ => exact h.symm)]
    exact pairRow x1 (k 0)
  · rw [if_neg h, concatenate_pair_apply_right (1 : Fin S131072x2.rank) _ _ concatenates_S131072x1_S131072x1_S131072x2_d1 k rfl rfl
      (ix2 (k 0) (0 : Fin 1)) (fun b hb => by match b, hb with | ⟨0, _⟩, _ => rfl | ⟨1, _⟩, hb => exact absurd rfl hb)
      (by show 0 + 1 = (k 1).val; omega)]
    exact pairCol x1 (k 0)

theorem uitofp_zero : FloatOps.uitofp (F := Ideal) .f32 (0#1) = (0 : EReal) := by
  show ((((0#1 : BitVec 1)).toNat : ℝ) : EReal) = 0
  simp
theorem uitofp_one : FloatOps.uitofp (F := Ideal) .f32 (1#1) = (1 : EReal) := by
  show ((((1#1 : BitVec 1)).toNat : ℝ) : EReal) = 1
  simp

theorem refAdj_eq :
    refAdj x1 = Cert.Spec.adjOf scatter_S4096x4096_S131072x2_S131072_n_01_01_1 (Cert.Spec.pairIdx (rowOf x1) (colOf x1)) := by
  funext i j
  show FloatOps.uitofp (F := Ideal) .f32 (val_main_v49 (F := Ideal) x1 (ix2 i j)) = _
  have hz : val_main_v34 (F := Ideal) = fun _ => 0#1 := by
    funext a; rw [val_main_v34_apply, val_main_c_2_apply]
  have ho : val_main_v48 (F := Ideal) = fun _ => 1#1 := by
    funext a; rw [val_main_v48_apply, val_main_c_7_apply]
  unfold val_main_v49 Cert.Spec.adjOf
  rw [hz, ho, pairIdx_eq]
  have hm := congrFun (scatter_set_map (fun b : BitVec 1 => FloatOps.uitofp (F := Ideal) .f32 b) scatter_S4096x4096_S131072x2_S131072_n_01_01_1
    (fun _ => 0#1) (Cert.Spec.pairIdx (rowOf x1) (colOf x1)) (fun _ => 1#1)) (ix2 i j)
  simp only [uitofp_zero, uitofp_one] at hm
  exact hm

theorem result_eq (m : (ℓ : Loc nD τ sig) → Buf (Elt Ideal) ℓ) (c : Dev nD) (n : Fin 4096) :
    Cert.ReferenceIdeal.ValueP.res_main_v68 (F := Ideal) m c (ix2 n (0 : Fin 1))
      = Cert.Spec.hops
          (node0 (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)))
          (Cert.Spec.adjOf scatter_S4096x4096_S131072x2_S131072_n_01_01_1 (Cert.Spec.pairIdx (rowOf (m ((c.tc : Thread nD τ).loc main_arg1))) (colOf (m ((c.tc : Thread nD τ).loc main_arg1)))))
          (rowOf (m ((c.tc : Thread nD τ).loc main_arg1))) (colOf (m ((c.tc : Thread nD τ).loc main_arg1))) n := by
  rw [val_main_v68_eq, ref_eq, refAdj_eq]

end Cert.ReferenceIdeal.RefValue

end
-- ==== Proof.Math.lean ====
import proofs.«407440_j80281528697035_2_alg».proof.Proof.Carry
import proofs.«407440_j80281528697035_2_alg».proof.Proof.Spec
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.KernelIdeal.Math

open Cert.KernelIdeal Cert.KernelIdeal.Gen
open Idealize.ShloMosaic Idealize.ShloMosaic.ValueIdx Idealize.ShloMosaic.TcCoe Idealize.SL.Sem

theorem pay1_apply (y : S1024x1024.Idx) : k1_pay1 (F := Ideal) y = 0 := by
  unfold k1_pay1
  rw [shapeCast_self]
  exact Ideal.ofBits_zero_f32

theorem pay3_apply (y : S1024x1.Idx) : k1_pay3 (F := Ideal) y = 0 := by
  unfold k1_pay3
  rw [shapeCast_self]
  exact Ideal.ofBits_zero_f32

theorem pay4_apply (acc : Vec Ideal S1024x1024 .f32) (y : S1024x1024.Idx) :
    k1_pay4 (F := Ideal) acc y = if Spec.z0 < acc y then 1 else 0 := by
  unfold k1_pay4
  show (((((BitVec.ofBool (decide (Spec.z0 < acc y))).setWidth 32).toInt : ℝ)) : EReal) = _
  by_cases h : Spec.z0 < acc y
  · rw [if_pos h, decide_eq_true h]
    have e : ((BitVec.ofBool true).setWidth 32).toInt = 1 := by decide
    rw [e, Int.cast_one, EReal.coe_one]
  · rw [if_neg h, decide_eq_false h]
    have e : ((BitVec.ofBool false).setWidth 32).toInt = 0 := by decide
    rw [e, Int.cast_zero, EReal.coe_zero]

theorem matmul0_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  simp only [matmul, Host.dotGeneral]
  rw [Ideal.matmul_constant_zero_apply, Ideal.dotGeneral_apply]

theorem pay2_apply (a : Vec Ideal S1024x1024 .f32) (l r : Vec Ideal S1024x1024 .bf16) (p q : Fin 1024) :
    k1_pay2 (F := Ideal) a l r (ix2 p q) = a (ix2 p q) + ∑ z : Fin 1024, l (ix2 p z) * r (ix2 z q) := by
  unfold k1_pay2
  simp only [shapeCast_self]
  rw [addf_apply]
  exact congrArg (a (ix2 p q) + ·) (matmul0_plain_apply none l r p q)

theorem pay5_apply (acc : Vec Ideal S1024x1024 .f32) (v : Vec Ideal S1024x1 .f32) (a : Vec Ideal S1024x1 .bf16)
    (p : Fin 1024) (q : Fin 1) :
    k1_pay5 (F := Ideal) acc v a (ix2 p q)
      = v (ix2 p q) + ∑ z : Fin 1024, k1_pay4 (F := Ideal) acc (ix2 p z) * a (ix2 z q) := by
  unfold k1_pay5
  simp only [shapeCast_self]
  rw [addf_apply]
  exact congrArg (v (ix2 p q) + ·) (matmul0_plain_apply none (k1_pay4 acc) a p q)

theorem pay6_apply (s v : Vec Ideal S1024x1 .f32) (y : S1024x1.Idx) :
    k1_pay6 (F := Ideal) s v y = s y + Spec.lg3 * v y := by
  unfold k1_pay6
  rw [shapeCast_self]
  rfl

theorem pay7_apply (s v a : Vec Ideal S1024x1 .f32) (y : S1024x1.Idx) :
    k1_pay7 (F := Ideal) s v a y = a y + (s y + Spec.lg3 * v y) := by
  unfold k1_pay7
  rw [shapeCast_self, addf_apply, pay6_apply]

theorem k2_pay6_apply (s v a : Vec Ideal S1024x1 .f32) (y : S1024x1.Idx) :
    k2_pay6 (F := Ideal) s v a y = a y + (s y + Spec.lg4 * v y) := by
  unfold k2_pay6 k2_pay5
  rw [shapeCast_self, shapeCast_self, addf_apply]
  rfl

def blkIx (b : Fin 4) (y : Fin 1024) : Fin 4096 := ⟨1024 * b.val + y.val, by omega⟩

def bi (n : ℕ) : Fin 4 := ⟨n / 16 % 4, Nat.mod_lt _ (by decide)⟩
def bj (n : ℕ) : Fin 4 := ⟨n / 4 % 4, Nat.mod_lt _ (by decide)⟩
def bk (n : ℕ) : Fin 4 := ⟨n % 4, Nat.mod_lt _ (by decide)⟩

theorem sum_blocks {M : Type*} [AddCommMonoid M] (f : Fin 4096 → M) :
    ∑ r : Fin 4096, f r = ∑ b : Fin 4, ∑ y : Fin 1024, f (blkIx b y) := by
  rw [← Equiv.sum_comp (finProdFinEquiv (m := 4) (n := 1024)) f, Fintype.sum_prod_type]
  exact Finset.sum_congr rfl fun b _ => Finset.sum_congr rfl fun y _ => congrArg f (Fin.ext (Nat.add_comm _ _))

theorem blkIx_bi (n : ℕ) (hn : n < 64) (y : Fin 1024) (hlt : 1024 * (n / 16) + y.val < 4096) :
    (⟨1024 * (n / 16) + y.val, hlt⟩ : Fin 4096) = blkIx (bi n) y :=
  Fin.ext (by show 1024 * (n / 16) + y.val = 1024 * (n / 16 % 4) + y.val; omega)
theorem blkIx_bj (n : ℕ) (y : Fin 1024) (hlt : 1024 * (n / 4 % 4) + y.val < 4096) :
    (⟨1024 * (n / 4 % 4) + y.val, hlt⟩ : Fin 4096) = blkIx (bj n) y := rfl
theorem blkIx_bk (n : ℕ) (y : Fin 1024) (hlt : 1024 * (n % 4) + y.val < 4096) :
    (⟨1024 * (n % 4) + y.val, hlt⟩ : Fin 4096) = blkIx (bk n) y := rfl

section Recursion

variable {N : ℕ}
variable (lhs rhs : (n : ℕ) → n < N → Vec Ideal S1024x1024 .bf16) (av : (n : ℕ) → n < N → Vec Ideal S1024x1 .bf16)

abbrev accOf := Carry.accOf (k1_pay1 (F := Ideal)) k1_pay2 lhs rhs
abbrev vecOf := Carry.vecOf (k1_pay1 (F := Ideal)) k1_pay2 (k1_pay3 (F := Ideal)) k1_pay5 lhs rhs av

theorem accOf_full (m : ℕ) (h : 4 * m + 3 < N) (p q : Fin 1024) :
    accOf lhs rhs (4 * m + 3) h (ix2 p q)
      = ∑ k : Fin 4, ∑ z : Fin 1024,
          lhs (4 * m + k.val) (by omega) (ix2 p z) * rhs (4 * m + k.val) (by omega) (ix2 z q) := by
  unfold accOf
  rw [Carry.accOf_step _ _ lhs rhs (4 * m + 3) (4 * m + 2) h (by omega) rfl (by omega), pay2_apply,
    Carry.accOf_step _ _ lhs rhs (4 * m + 2) (4 * m + 1) (by omega) (by omega) rfl (by omega), pay2_apply,
    Carry.accOf_step _ _ lhs rhs (4 * m + 1) (4 * m) (by omega) (by omega) rfl (by omega), pay2_apply,
    Carry.accOf_reset _ _ lhs rhs (4 * m) (by omega) (by omega), pay2_apply, pay1_apply, zero_add, Fin.sum_univ_four]
  rfl

theorem vecOf_first (m : ℕ) (h : 16 * m + 3 < N) :
    vecOf lhs rhs av (16 * m + 3) h = k1_pay5 (accOf lhs rhs (16 * m + 3) h) (k1_pay3 (F := Ideal)) (av (16 * m + 3) h) := by
  unfold vecOf accOf
  rw [Carry.vecOf_add _ _ _ _ lhs rhs av (16 * m + 3) (16 * m + 2) h (by omega) rfl (by omega),
    Carry.vecOf_keep _ _ _ _ lhs rhs av (16 * m + 2) (16 * m + 1) (by omega) (by omega) rfl (by omega) (by omega),
    Carry.vecOf_keep _ _ _ _ lhs rhs av (16 * m + 1) (16 * m) (by omega) (by omega) rfl (by omega) (by omega),
    Carry.vecOf_reset _ _ _ _ lhs rhs av (16 * m) (by omega) (by omega)]

theorem vecOf_next (n : ℕ) (h : n + 4 < N) (h4 : n % 4 = 3) (h16 : n % 16 ≠ 15) :
    vecOf lhs rhs av (n + 4) h
      = k1_pay5 (accOf lhs rhs (n + 4) h) (vecOf lhs rhs av n (by omega)) (av (n + 4) h) := by
  unfold vecOf accOf
  rw [Carry.vecOf_add _ _ _ _ lhs rhs av (n + 4) (n + 3) h (by omega) rfl (by omega),
    Carry.vecOf_keep _ _ _ _ lhs rhs av (n + 3) (n + 2) (by omega) (by omega) rfl (by omega) (by omega),
    Carry.vecOf_keep _ _ _ _ lhs rhs av (n + 2) (n + 1) (by omega) (by omega) rfl (by omega) (by omega),
    Carry.vecOf_keep _ _ _ _ lhs rhs av (n + 1) n (by omega) (by omega) rfl (by omega) (by omega)]

theorem vecOf_full (m : ℕ) (h : 16 * m + 15 < N) (p : Fin 1024) (q : Fin 1) :
    vecOf lhs rhs av (16 * m + 15) h (ix2 p q)
      = ∑ j : Fin 4, ∑ z : Fin 1024,
          k1_pay4 (accOf lhs rhs (16 * m + 4 * j.val + 3) (by omega)) (ix2 p z)
            * av (16 * m + 4 * j.val + 3) (by omega) (ix2 z q) := by
  rw [vecOf_next lhs rhs av (16 * m + 11) h (by omega) (by omega), pay5_apply,
    vecOf_next lhs rhs av (16 * m + 7) (by omega) (by omega) (by omega), pay5_apply,
    vecOf_next lhs rhs av (16 * m + 3) (by omega) (by omega) (by omega), pay5_apply,
    vecOf_first lhs rhs av m (by omega), pay5_apply, pay3_apply, zero_add, Fin.sum_univ_four]
  rfl

section Cut

variable (A B : Fin 4096 → Fin 4096 → EReal) (a : Fin 4096 → EReal)
  (hl : ∀ (n : ℕ) (h : n < N) (y0 y1 : Fin 1024), lhs n h (ix2 y0 y1) = A (blkIx (bi n) y0) (blkIx (bk n) y1))
    (hr : ∀ (n : ℕ) (h : n < N) (y0 y1 : Fin 1024), rhs n h (ix2 y0 y1) = B (blkIx (bk n) y0) (blkIx (bj n) y1))
include hl hr

theorem thr_accOf (n : ℕ) (h : n < N) (hn : n % 4 = 3) (y0 y1 : Fin 1024) :
    k1_pay4 (accOf lhs rhs n h) (ix2 y0 y1) = Spec.boolMul A B (blkIx (bi n) y0) (blkIx (bj n) y1) := by
  obtain ⟨m, rfl⟩ : ∃ m, n = 4 * m + 3 := ⟨n / 4, by omega⟩
  rw [pay4_apply, accOf_full]
  unfold Spec.boolMul
  rw [sum_blocks]
  have e : ∀ (k : Fin 4) (z : Fin 1024),
      lhs (4 * m + k.val) (by omega) (ix2 y0 z) * rhs (4 * m + k.val) (by omega) (ix2 z y1)
        = A (blkIx (bi (4 * m + 3)) y0) (blkIx k z) * B (blkIx k z) (blkIx (bj (4 * m + 3)) y1) := by
    intro k z
    have e1 : bi (4 * m + k.val) = bi (4 * m + 3) := Fin.ext (by show _ / 16 % 4 = _ / 16 % 4; omega)
    have e2 : bk (4 * m + k.val) = k := Fin.ext (by show _ % 4 = _; omega)
    have e3 : bj (4 * m + k.val) = bj (4 * m + 3) := Fin.ext (by show _ / 4 % 4 = _ / 4 % 4; omega)
    rw [hl, hr, e1, e2, e3]
  rw [Finset.sum_congr rfl fun k _ => Finset.sum_congr rfl fun z _ => e k z]

theorem vecOf_spec
    (hav : ∀ (n : ℕ) (h : n < N) (y0 : Fin 1024) (q : Fin 1), av n h (ix2 y0 q) = a (blkIx (bj n) y0))
    (n : ℕ) (h : n < N) (hn : n % 16 = 15) (p : Fin 1024) (q : Fin 1) :
    vecOf lhs rhs av n h (ix2 p q) = Spec.matVec (Spec.boolMul A B) a (blkIx (bi n) p) := by
  obtain ⟨m, rfl⟩ : ∃ m, n = 16 * m + 15 := ⟨n / 16, by omega⟩
  rw [vecOf_full]
  unfold Spec.matVec
  rw [sum_blocks]
  refine Finset.sum_congr rfl fun j _ => Finset.sum_congr rfl fun z _ => ?_
  have e1 : bi (16 * m + 4 * j.val + 3) = bi (16 * m + 15) := Fin.ext (by show _ / 16 % 4 = _ / 16 % 4; omega)
  have e2 : bj (16 * m + 4 * j.val + 3) = j := Fin.ext (by show _ / 4 % 4 = _; omega)
  rw [thr_accOf lhs rhs A B hl hr (16 * m + 4 * j.val + 3) (by omega) (by omega), hav, e1, e2]

end Cut

section CutArrays

variable (hN : N ≤ 64) (A B : FVec Ideal S4096x4096 .bf16) (a : FVec Ideal S4096x1 .bf16)
  (hl : ∀ (n : ℕ) (h : n < N) (y0 y1 : Fin 1024), lhs n h (ix2 y0 y1)
      = A (ix2 (⟨1024 * (n / 16) + y0.val, by omega⟩ : Fin 4096) (⟨1024 * (n % 4) + y1.val, by omega⟩ : Fin 4096)))
    (hr : ∀ (n : ℕ) (h : n < N) (y0 y1 : Fin 1024), rhs n h (ix2 y0 y1)
      = B (ix2 (⟨1024 * (n % 4) + y0.val, by omega⟩ : Fin 4096) (⟨1024 * (n / 4 % 4) + y1.val, by omega⟩ : Fin 4096)))
include hN hl hr

theorem thr_accOf_arr (n : ℕ) (h : n < N) (hn : n % 4 = 3) (y0 y1 : Fin 1024) :
    k1_pay4 (accOf lhs rhs n h) (ix2 y0 y1)
      = Spec.boolMul (fun i j => A (ix2 i j)) (fun i j => B (ix2 i j))
          ⟨1024 * (n / 16) + y0.val, by omega⟩ ⟨1024 * (n / 4 % 4) + y1.val, by omega⟩ := by
  rw [thr_accOf lhs rhs (fun i j => A (ix2 i j)) (fun i j => B (ix2 i j))
    (fun n h y0 y1 => (hl n h y0 y1).trans (by rw [blkIx_bi n (by omega), blkIx_bk]))
    (fun n h y0 y1 => (hr n h y0 y1).trans (by rw [blkIx_bk, blkIx_bj])) n h hn, blkIx_bi n (by omega), blkIx_bj]

theorem vecOf_spec_arr
    (hav : ∀ (n : ℕ) (h : n < N) (y0 : Fin 1024), av n h (ix2 y0 (0 : Fin 1))
      = a (ix2 (⟨1024 * (n / 4 % 4) + y0.val, by omega⟩ : Fin 4096) (0 : Fin 1)))
    (n : ℕ) (h : n < N) (hn : n % 16 = 15) (p : Fin 1024) :
    vecOf lhs rhs av n h (ix2 p (0 : Fin 1))
      = Spec.matVec (Spec.boolMul (fun i j => A (ix2 i j)) (fun i j => B (ix2 i j))) (fun j => a (ix2 j (0 : Fin 1)))
          ⟨1024 * (n / 16) + p.val, by omega⟩ := by
  rw [vecOf_spec lhs rhs av (fun i j => A (ix2 i j)) (fun i j => B (ix2 i j)) (fun j => a (ix2 j (0 : Fin 1)))
    (fun n h y0 y1 => (hl n h y0 y1).trans (by rw [blkIx_bi n (by omega), blkIx_bk]))
    (fun n h y0 y1 => (hr n h y0 y1).trans (by rw [blkIx_bk, blkIx_bj]))
    (fun n h y0 q => by rw [Fin.eq_zero q, hav n h y0, blkIx_bj]) n h hn, blkIx_bi n (by omega)]

end CutArrays

end Recursion

section Carried

variable (V : (c : Dev nD) → (b : Ref sig .tc) → Buf (Elt Ideal) ((c : Thread nD τ).loc b))

theorem lt64_1 (t : Fin cfg1.N) : t.val < 64 := lt_of_lt_of_eq t.isLt N_1
theorem lt64_2 (t : Fin cfg2.N) : t.val < 64 := lt_of_lt_of_eq t.isLt N_2

theorem acc1_eq (c : Dev nD) (n : ℕ) (h : n < cfg1.N) :
    Carry.acc1 V c n h = accOf (fun n h => Carry.lhs1 V c ⟨n, h⟩) (fun n h => Carry.rhs1 V c ⟨n, h⟩) n h := rfl

theorem vec1_eq (c : Dev nD) (n : ℕ) (h : n < cfg1.N) :
    Carry.vec1 V c n h = vecOf (fun n h => Carry.lhs1 V c ⟨n, h⟩) (fun n h => Carry.rhs1 V c ⟨n, h⟩)
      (fun n h => Carry.av1 V c ⟨n, h⟩) n h := rfl

theorem vec2_eq (c : Dev nD) (n : ℕ) (h : n < cfg2.N) :
    Carry.vec2 V c n h = vecOf (fun n h => Carry.lhs2 V c ⟨n, h⟩) (fun n h => Carry.rhs2 V c ⟨n, h⟩)
      (fun n h => Carry.av2 V c ⟨n, h⟩) n h := rfl

theorem ak1_spec (c : Dev nD) (A B : FVec Ideal S4096x4096 .bf16)
    (hl : ∀ (t : Fin cfg1.N) (y0 y1 : Fin 1024), Carry.lhs1 V c t (ix2 y0 y1)
      = A (ix2 (⟨1024 * (t.val / 16) + y0.val, by have := lt64_1 t; omega⟩ : Fin 4096)
          (⟨1024 * (t.val % 4) + y1.val, by omega⟩ : Fin 4096)))
    (hr : ∀ (t : Fin cfg1.N) (y0 y1 : Fin 1024), Carry.rhs1 V c t (ix2 y0 y1)
      = B (ix2 (⟨1024 * (t.val % 4) + y0.val, by omega⟩ : Fin 4096)
          (⟨1024 * (t.val / 4 % 4) + y1.val, by omega⟩ : Fin 4096)))
    (t : Fin cfg1.N) (ht : t.val % 4 = 3) (y0 y1 : Fin 1024) :
    Carry.ak1 V c t (ix2 y0 y1)
      = Spec.boolMul (fun i j => A (ix2 i j)) (fun i j => B (ix2 i j))
          ⟨1024 * (t.val / 16) + y0.val, by have := lt64_1 t; omega⟩
          ⟨1024 * (t.val / 4 % 4) + y1.val, by omega⟩ := by
  unfold Carry.ak1
  rw [acc1_eq]
  exact thr_accOf_arr _ _ (le_of_eq N_1) A B (fun n h => hl ⟨n, h⟩) (fun n h => hr ⟨n, h⟩) t.val t.isLt ht y0 y1

theorem step1_spec (c : Dev nD) (A B : FVec Ideal S4096x4096 .bf16) (a : FVec Ideal S4096x1 .bf16)
    (s : FVec Ideal S4096x1 .f32)
    (hl : ∀ (t : Fin cfg1.N) (y0 y1 : Fin 1024), Carry.lhs1 V c t (ix2 y0 y1)
      = A (ix2 (⟨1024 * (t.val / 16) + y0.val, by have := lt64_1 t; omega⟩ : Fin 4096)
          (⟨1024 * (t.val % 4) + y1.val, by omega⟩ : Fin 4096)))
    (hr : ∀ (t : Fin cfg1.N) (y0 y1 : Fin 1024), Carry.rhs1 V c t (ix2 y0 y1)
      = B (ix2 (⟨1024 * (t.val % 4) + y0.val, by omega⟩ : Fin 4096)
          (⟨1024 * (t.val / 4 % 4) + y1.val, by omega⟩ : Fin 4096)))
    (hav : ∀ (t : Fin cfg1.N) (y0 : Fin 1024), Carry.av1 V c t (ix2 y0 (0 : Fin 1))
      = a (ix2 (⟨1024 * (t.val / 4 % 4) + y0.val, by omega⟩ : Fin 4096) (0 : Fin 1)))
    (hsp : ∀ (t : Fin cfg1.N) (y0 : Fin 1024), Carry.sp1 V c t (ix2 y0 (0 : Fin 1))
      = s (ix2 (⟨1024 * (t.val / 16) + y0.val, by have := lt64_1 t; omega⟩ : Fin 4096) (0 : Fin 1)))
    (t : Fin cfg1.N) (ht : t.val % 16 = 15) (y0 : Fin 1024) :
    Carry.step1 V c t (ix2 y0 (0 : Fin 1))
      = s (ix2 (⟨1024 * (t.val / 16) + y0.val, by have := lt64_1 t; omega⟩ : Fin 4096) (0 : Fin 1))
        + Spec.lg3 * Spec.matVec (Spec.boolMul (fun i j => A (ix2 i j)) (fun i j => B (ix2 i j)))
            (fun j => a (ix2 j (0 : Fin 1))) ⟨1024 * (t.val / 16) + y0.val, by have := lt64_1 t; omega⟩ := by
  unfold Carry.step1
  rw [pay6_apply, vec1_eq, vecOf_spec_arr _ _ _ (le_of_eq N_1) A B a (fun n h => hl ⟨n, h⟩) (fun n h => hr ⟨n, h⟩) (fun n h => hav ⟨n, h⟩) t.val t.isLt ht y0, hsp]

theorem node1_spec (c : Dev nD) (A B : FVec Ideal S4096x4096 .bf16) (a : FVec Ideal S4096x1 .bf16)
    (r s : FVec Ideal S4096x1 .f32)
    (hl : ∀ (t : Fin cfg1.N) (y0 y1 : Fin 1024), Carry.lhs1 V c t (ix2 y0 y1)
      = A (ix2 (⟨1024 * (t.val / 16) + y0.val, by have := lt64_1 t; omega⟩ : Fin 4096)
          (⟨1024 * (t.val % 4) + y1.val, by omega⟩ : Fin 4096)))
    (hr : ∀ (t : Fin cfg1.N) (y0 y1 : Fin 1024), Carry.rhs1 V c t (ix2 y0 y1)
      = B (ix2 (⟨1024 * (t.val % 4) + y0.val, by omega⟩ : Fin 4096)
          (⟨1024 * (t.val / 4 % 4) + y1.val, by omega⟩ : Fin 4096)))
    (hav : ∀ (t : Fin cfg1.N) (y0 : Fin 1024), Carry.av1 V c t (ix2 y0 (0 : Fin 1))
      = a (ix2 (⟨1024 * (t.val / 4 % 4) + y0.val, by omega⟩ : Fin 4096) (0 : Fin 1)))
    (har : ∀ (t : Fin cfg1.N) (y0 : Fin 1024), Carry.ar1 V c t (ix2 y0 (0 : Fin 1))
      = r (ix2 (⟨1024 * (t.val / 16) + y0.val, by have := lt64_1 t; omega⟩ : Fin 4096) (0 : Fin 1)))
    (hsp : ∀ (t : Fin cfg1.N) (y0 : Fin 1024), Carry.sp1 V c t (ix2 y0 (0 : Fin 1))
      = s (ix2 (⟨1024 * (t.val / 16) + y0.val, by have := lt64_1 t; omega⟩ : Fin 4096) (0 : Fin 1)))
    (t : Fin cfg1.N) (ht : t.val % 16 = 15) (y0 : Fin 1024) :
    Carry.node1 V c t (ix2 y0 (0 : Fin 1))
      = r (ix2 (⟨1024 * (t.val / 16) + y0.val, by have := lt64_1 t; omega⟩ : Fin 4096) (0 : Fin 1))
        + (s (ix2 (⟨1024 * (t.val / 16) + y0.val, by have := lt64_1 t; omega⟩ : Fin 4096) (0 : Fin 1))
          + Spec.lg3 * Spec.matVec (Spec.boolMul (fun i j => A (ix2 i j)) (fun i j => B (ix2 i j)))
              (fun j => a (ix2 j (0 : Fin 1))) ⟨1024 * (t.val / 16) + y0.val, by have := lt64_1 t; omega⟩) := by
  unfold Carry.node1
  rw [pay7_apply, vec1_eq, vecOf_spec_arr _ _ _ (le_of_eq N_1) A B a (fun n h => hl ⟨n, h⟩) (fun n h => hr ⟨n, h⟩) (fun n h => hav ⟨n, h⟩) t.val t.isLt ht y0, hsp, har]

theorem node2_spec (c : Dev nD) (A B : FVec Ideal S4096x4096 .bf16) (a : FVec Ideal S4096x1 .bf16)
    (r s : FVec Ideal S4096x1 .f32)
    (hl : ∀ (t : Fin cfg2.N) (y0 y1 : Fin 1024), Carry.lhs2 V c t (ix2 y0 y1)
      = A (ix2 (⟨1024 * (t.val / 16) + y0.val, by have := lt64_2 t; omega⟩ : Fin 4096)
          (⟨1024 * (t.val % 4) + y1.val, by omega⟩ : Fin 4096)))
    (hr : ∀ (t : Fin cfg2.N) (y0 y1 : Fin 1024), Carry.rhs2 V c t (ix2 y0 y1)
      = B (ix2 (⟨1024 * (t.val % 4) + y0.val, by omega⟩ : Fin 4096)
          (⟨1024 * (t.val / 4 % 4) + y1.val, by omega⟩ : Fin 4096)))
    (hav : ∀ (t : Fin cfg2.N) (y0 : Fin 1024), Carry.av2 V c t (ix2 y0 (0 : Fin 1))
      = a (ix2 (⟨1024 * (t.val / 4 % 4) + y0.val, by omega⟩ : Fin 4096) (0 : Fin 1)))
    (har : ∀ (t : Fin cfg2.N) (y0 : Fin 1024), Carry.ar2 V c t (ix2 y0 (0 : Fin 1))
      = r (ix2 (⟨1024 * (t.val / 16) + y0.val, by have := lt64_2 t; omega⟩ : Fin 4096) (0 : Fin 1)))
    (hsp : ∀ (t : Fin cfg2.N) (y0 : Fin 1024), Carry.sp2 V c t (ix2 y0 (0 : Fin 1))
      = s (ix2 (⟨1024 * (t.val / 16) + y0.val, by have := lt64_2 t; omega⟩ : Fin 4096) (0 : Fin 1)))
    (t : Fin cfg2.N) (ht : t.val % 16 = 15) (y0 : Fin 1024) :
    Carry.node2 V c t (ix2 y0 (0 : Fin 1))
      = r (ix2 (⟨1024 * (t.val / 16) + y0.val, by have := lt64_2 t; omega⟩ : Fin 4096) (0 : Fin 1))
        + (s (ix2 (⟨1024 * (t.val / 16) + y0.val, by have := lt64_2 t; omega⟩ : Fin 4096) (0 : Fin 1))
          + Spec.lg4 * Spec.matVec (Spec.boolMul (fun i j => A (ix2 i j)) (fun i j => B (ix2 i j)))
              (fun j => a (ix2 j (0 : Fin 1))) ⟨1024 * (t.val / 16) + y0.val, by have := lt64_2 t; omega⟩) := by
  unfold Carry.node2
  rw [k2_pay6_apply, vec2_eq, vecOf_spec_arr _ _ _ (le_of_eq N_2) A B a (fun n h => hl ⟨n, h⟩) (fun n h => hr ⟨n, h⟩) (fun n h => hav ⟨n, h⟩) t.val t.isLt ht y0, hsp, har]

end Carried

end Cert.KernelIdeal.Math

end
-- ==== Proof.MlpMath.lean ====
import proofs.«407440_j80281528697035_2_alg».proof.Proof.Gen.KernelIdeal.Skeleton
import proofs.«407440_j80281528697035_2_alg».proof.Proof.Spec
import proofs.«407440_j80281528697035_2_alg».proof.Proof.Math
import Idealize.ShloMosaic.Lib.ValueIdx
import Idealize.ShloMosaic.Lib.Pipeline.Value
import Idealize.ShloMosaic.PureOps.Ideal.Laws

noncomputable section

open scoped BigOperators

namespace Cert.KernelIdeal.MlpMath

open Idealize.ShloMosaic Idealize.SL.Sem Idealize.ShloMosaic.ValueIdx
open Cert.KernelIdeal Cert.KernelIdeal.Gen

theorem biasRow_apply (b : FVec Ideal S1x128 .f32) (h : S1x128.Broadcasts S1024x128) (y : Fin 1024) (j : Fin 128) :
    broadcastTo S1024x128 b h (ix2 y j) = b (ix2 (0 : Fin 1) j) :=
  broadcastTo_apply b h (ix2 y j) (ix2 (0 : Fin 1) j) (fun a => by
    match a with
    | ⟨0, _⟩ => rfl
    | ⟨1, _⟩ => rfl)

theorem biasOne_apply (b : FVec Ideal S1x1 .f32) (h : S1x1.Broadcasts S1024x1) (y : Fin 1024) :
    broadcastTo S1024x1 b h (ix2 y (0 : Fin 1)) = b (ix2 (0 : Fin 1) (0 : Fin 1)) :=
  broadcastTo_apply b h (ix2 y (0 : Fin 1)) (ix2 (0 : Fin 1) (0 : Fin 1)) (fun a => by
    match a with
    | ⟨0, _⟩ => rfl
    | ⟨1, _⟩ => rfl)

def mm (h : FVec Ideal S1024x128 .f32) (w : FVec Ideal S128x128 .f32) : FVec Ideal S1024x128 .f32 :=
  matmul dot_S1024x128_S128x128_S1024x128_1_0_0_1_n_n none (truncf .bf16 h bitsLt_bf16_f32)
    (truncf .bf16 (shapeCast S128x128 w shapeCasts_S128x128_S128x128) bitsLt_bf16_f32) (constant S1024x128 .f32 0x00000000#32)

def hid0 (x : FVec Ideal S1024x128 .f32) (w : FVec Ideal S128x128 .f32) (b : FVec Ideal S1x128 .f32) : FVec Ideal S1024x128 .f32 :=
  maximumf (addf (mm x w) (broadcastTo S1024x128 (shapeCast S1x128 b shapeCasts_S1x128_S1x128) broadcasts_S1x128_S1024x128))
    (broadcast S1024x128 (Scalar.ofBits .f32 0x00000000#32))

def hid (h : FVec Ideal S1024x128 .f32) (w : FVec Ideal S128x128 .f32) : FVec Ideal S1024x128 .f32 :=
  maximumf (mm h w) (broadcast S1024x128 (Scalar.ofBits .f32 0x00000000#32))

def outl (h : FVec Ideal S1024x128 .f32) (w : FVec Ideal S128x1 .f32) (b : FVec Ideal S1x1 .f32) : FVec Ideal S1024x1 .f32 :=
  addf
    (matmul dot_S1024x128_S128x1_S1024x1_1_0_0_1_n_n none (truncf .bf16 h bitsLt_bf16_f32)
      (truncf .bf16 (shapeCast S128x1 w shapeCasts_S128x1_S128x1) bitsLt_bf16_f32) (constant S1024x1 .f32 0x00000000#32))
    (broadcastTo S1024x1 (shapeCast S1x1 b shapeCasts_S1x1_S1x1) broadcasts_S1x1_S1024x1)

theorem k0_pay1_eq (x : FVec Ideal S1024x128 .f32) (w0 w1 w2 : FVec Ideal S128x128 .f32) (b0 : FVec Ideal S1x128 .f32)
    (w3 : FVec Ideal S128x1 .f32) (b3 : FVec Ideal S1x1 .f32) :
    Gen.k0_pay1 (F := Ideal) x w0 b0 w1 w2 w3 b3 = outl (hid (hid (hid0 x w0 b0) w1) w2) w3 b3 := rfl

section Layer

variable (w : FVec Ideal S128x128 .f32) (W : Fin 128 → Fin 128 → EReal) (r : Fin 4096) (y : Fin 1024)
  (hw : ∀ k j : Fin 128, w (ix2 k j) = W j k)
include hw

theorem mm_apply (h : FVec Ideal S1024x128 .f32) (H : Fin 4096 → Fin 128 → EReal) (hh : ∀ k : Fin 128, h (ix2 y k) = H r k)
    (j : Fin 128) : mm h w (ix2 y j) = ∑ k : Fin 128, H r k * W j k :=
  (Math.matmul0_plain_apply none _ _ y j).trans
    (Finset.sum_congr rfl fun k _ => by rw [truncf_apply, truncf_apply, shapeCast_self, hh k, hw k j])

theorem hid0_apply (x : FVec Ideal S1024x128 .f32) (b : FVec Ideal S1x128 .f32) (X : Fin 4096 → Fin 128 → EReal) (B : Fin 128 → EReal)
    (hx : ∀ k : Fin 128, x (ix2 y k) = X r k) (hb : ∀ j : Fin 128, b (ix2 (0 : Fin 1) j) = B j) (j : Fin 128) :
    hid0 x w b (ix2 y j) = Spec.layer0 X W B r j := by
  unfold hid0 Spec.layer0
  rw [maximumf_apply, addf_apply, biasRow_apply, broadcast_apply, shapeCast_self, hb j]
  exact congrArg (fun s => max (s + B j) Spec.z0) (mm_apply w W r y hw x X hx j)

theorem hid_apply (h : FVec Ideal S1024x128 .f32) (H : Fin 4096 → Fin 128 → EReal) (hh : ∀ k : Fin 128, h (ix2 y k) = H r k)
    (j : Fin 128) : hid h w (ix2 y j) = Spec.layer H W r j := by
  unfold hid Spec.layer
  rw [maximumf_apply, broadcast_apply]
  exact congrArg (fun s => max s Spec.z0) (mm_apply w W r y hw h H hh j)

end Layer

theorem outl_apply (h : FVec Ideal S1024x128 .f32) (w : FVec Ideal S128x1 .f32) (b : FVec Ideal S1x1 .f32)
    (H : Fin 4096 → Fin 128 → EReal) (W : Fin 128 → EReal) (B : EReal) (r : Fin 4096) (y : Fin 1024)
    (hh : ∀ k : Fin 128, h (ix2 y k) = H r k) (hw : ∀ k : Fin 128, w (ix2 k (0 : Fin 1)) = W k)
    (hb : b (ix2 (0 : Fin 1) (0 : Fin 1)) = B) :
    outl h w b (ix2 y (0 : Fin 1)) = (∑ k : Fin 128, H r k * W k) + B := by
  unfold outl
  rw [addf_apply, biasOne_apply, shapeCast_self b, hb]
  exact congrArg (· + B) ((Math.matmul0_plain_apply none _ _ y 0).trans
    (Finset.sum_congr rfl fun k _ => by rw [truncf_apply, truncf_apply, shapeCast_self, hh k, hw k]))

theorem k0_pay1_apply (x : FVec Ideal S1024x128 .f32) (w0 w1 w2 : FVec Ideal S128x128 .f32) (b0 : FVec Ideal S1x128 .f32)
    (w3 : FVec Ideal S128x1 .f32) (b3 : FVec Ideal S1x1 .f32)
    (X : Fin 4096 → Fin 128 → EReal) (W0 W1 W2 : Fin 128 → Fin 128 → EReal) (B0 : Fin 128 → EReal) (W3 : Fin 128 → EReal) (B3 : EReal)
    (r : Fin 4096) (y : Fin 1024)
    (hx : ∀ k : Fin 128, x (ix2 y k) = X r k)
    (hw0 : ∀ k j : Fin 128, w0 (ix2 k j) = W0 j k) (hw1 : ∀ k j : Fin 128, w1 (ix2 k j) = W1 j k) (hw2 : ∀ k j : Fin 128, w2 (ix2 k j) = W2 j k)
    (hb0 : ∀ j : Fin 128, b0 (ix2 (0 : Fin 1) j) = B0 j)
    (hw3 : ∀ k : Fin 128, w3 (ix2 k (0 : Fin 1)) = W3 k)
    (hb3 : b3 (ix2 (0 : Fin 1) (0 : Fin 1)) = B3) :
    Gen.k0_pay1 (F := Ideal) x w0 b0 w1 w2 w3 b3 (ix2 y (0 : Fin 1)) = Spec.mlp X W0 B0 W1 W2 W3 B3 r := by
  rw [k0_pay1_eq]
  unfold Spec.mlp
  exact outl_apply _ w3 b3 _ W3 B3 r y
    (hid_apply w2 W2 r y hw2 _ _ (hid_apply w1 W1 r y hw1 _ _ (hid0_apply w0 W0 r y hw0 x b0 X B0 hx hb0))) hw3 hb3

end Cert.KernelIdeal.MlpMath

end
-- ==== Proof.KV0.lean ====
import proofs.«407440_j80281528697035_2_alg».proof.Proof.Main
import proofs.«407440_j80281528697035_2_alg».proof.Proof.R0
import proofs.«407440_j80281528697035_2_alg».proof.Proof.Spec
import proofs.«407440_j80281528697035_2_alg».proof.Proof.MlpMath
import Idealize.ShloMosaic.Lib.ValueLayout
import Idealize.ShloMosaic.Lib.Pipeline.Value
import Idealize.ShloMosaic.Lib.StableHlo.Run

noncomputable section

namespace Cert.KernelIdeal.KV0

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

theorem V1_arg0 (c : Dev nD) : (Main.V1 m ρ c main_arg0 : S4096x128.Idx → EReal) = m ((c.tc : Thread nD τ).loc main_arg0) :=
  StableHlo.after_of_writes_sub hostOps0 _ hostOps0_writes (by decide)

theorem V1_v0 (c : Dev nD) : (Main.V1 m ρ c main_v0 : S128x128.Idx → EReal) =
    transpose S128x128 [1, 0] (m ((c.tc : Thread nD τ).loc main_arg2) : S128x128.Idx → EReal) transposes_S128x128_S128x128_1_0 := by
  show StableHlo.after hostOps0 (Main.W0 m ρ c) (Proc.devRef .tc main_v0) = _
  after_results
theorem V1_v1 (c : Dev nD) : (Main.V1 m ρ c main_v1 : S128x128.Idx → EReal) =
    transpose S128x128 [1, 0] (m ((c.tc : Thread nD τ).loc main_arg4) : S128x128.Idx → EReal) transposes_S128x128_S128x128_1_0 := by
  show StableHlo.after hostOps0 (Main.W0 m ρ c) (Proc.devRef .tc main_v1) = _
  after_results
theorem V1_v2 (c : Dev nD) : (Main.V1 m ρ c main_v2 : S128x128.Idx → EReal) =
    transpose S128x128 [1, 0] (m ((c.tc : Thread nD τ).loc main_arg5) : S128x128.Idx → EReal) transposes_S128x128_S128x128_1_0 := by
  show StableHlo.after hostOps0 (Main.W0 m ρ c) (Proc.devRef .tc main_v2) = _
  after_results

theorem V1_v3 (c : Dev nD) : (Main.V1 m ρ c main_v3 : S128x1.Idx → EReal) =
    transpose S128x1 [1, 0] (m ((c.tc : Thread nD τ).loc main_arg6) : S1x128.Idx → EReal) transposes_S1x128_S128x1_1_0 := by
  show StableHlo.after hostOps0 (Main.W0 m ρ c) (Proc.devRef .tc main_v3) = _
  after_results

theorem V1_v4 (c : Dev nD) : (Main.V1 m ρ c main_v4 : S1x128.Idx → EReal) =
    shapeCast S1x128 (m ((c.tc : Thread nD τ).loc main_arg3) : S128.Idx → EReal) shapeCasts_S128_S1x128 := by
  show StableHlo.after hostOps0 (Main.W0 m ρ c) (Proc.devRef .tc main_v4) = _
  after_results
  rfl
theorem V1_v5 (c : Dev nD) : (Main.V1 m ρ c main_v5 : S1x1.Idx → EReal) =
    shapeCast S1x1 (m ((c.tc : Thread nD τ).loc main_arg7) : S1.Idx → EReal) shapeCasts_S1_S1x1 := by
  show StableHlo.after hostOps0 (Main.W0 m ρ c) (Proc.devRef .tc main_v5) = _
  after_results
  rfl

theorem w2_node0 (c : Dev nD) (r : Fin 4096) :
    (Main.W2 (F := Ideal) m ρ c (Proc.devRef .tc main_v6) : S4096x1.Idx → EReal) (ix2 r (0 : Fin 1)) =
      Spec.mlp (fun r k => (m ((c.tc : Thread nD τ).loc main_arg0) : S4096x128.Idx → EReal) (ix2 r k))
        (fun j k => (m ((c.tc : Thread nD τ).loc main_arg2) : S128x128.Idx → EReal) (ix2 j k))
        (fun j => (m ((c.tc : Thread nD τ).loc main_arg3) : S128.Idx → EReal) (ix1 j))
        (fun j k => (m ((c.tc : Thread nD τ).loc main_arg4) : S128x128.Idx → EReal) (ix2 j k))
        (fun j k => (m ((c.tc : Thread nD τ).loc main_arg5) : S128x128.Idx → EReal) (ix2 j k))
        (fun k => (m ((c.tc : Thread nD τ).loc main_arg6) : S1x128.Idx → EReal) (ix2 (0 : Fin 1) k))
        ((m ((c.tc : Thread nD τ).loc main_arg7) : S1.Idx → EReal) (ix1 (0 : Fin 1))) r := by
  have hr : r.val < 4096 := r.isLt
  have e : Main.W2 (F := Ideal) m ρ c (Proc.devRef .tc main_v6) = R0.mlpArr (Main.V1 m ρ) c :=
    (Main.W2_arr m ρ c 7).trans (R0.arrAt0_7 (Main.V1 m ρ) c)
  rw [e]
  show Gen.k0_pay1 (F := Ideal) (R0.rowBlock (Main.V1 m ρ c main_arg0) (r.val / 1024) _) (Main.V1 m ρ c main_v0) (Main.V1 m ρ c main_v4)
    (Main.V1 m ρ c main_v1) (Main.V1 m ρ c main_v2) (Main.V1 m ρ c main_v3) (Main.V1 m ρ c main_v5)
    (ix2 (⟨r.val % 1024, Nat.mod_lt _ (by decide)⟩ : Fin 1024) (0 : Fin 1)) = _
  refine MlpMath.k0_pay1_apply _ _ _ _ _ _ _ _ _ _ _ _ _ _ r ⟨r.val % 1024, Nat.mod_lt _ (by decide)⟩ ?_ ?_ ?_ ?_ ?_ ?_ ?_
  · intro k
    unfold R0.rowBlock
    rw [V1_arg0]
    congr 1
    funext a; apply Fin.ext
    match a with
    | ⟨0, _⟩ => show 1024 * (r.val / 1024) + r.val % 1024 = r.val; omega
    | ⟨1, _⟩ => rfl
  · intro k j; rw [V1_v0]; exact transpose_ix2_apply _ _ k j
  · intro k j; rw [V1_v1]; exact transpose_ix2_apply _ _ k j
  · intro k j; rw [V1_v2]; exact transpose_ix2_apply _ _ k j
  · intro j; rw [V1_v4]; exact shapeCast_a_1a_apply _ _ 0 j
  · intro k; rw [V1_v3]; exact transpose_ix2_apply _ _ k 0
  · rw [V1_v5]; exact shapeCast_a_1a_apply _ _ 0 0

end Cert.KernelIdeal.KV0

end
-- ==== Proof.R1Val.lean ====
import proofs.«407440_j80281528697035_2_alg».proof.Proof.Carry
import proofs.«407440_j80281528697035_2_alg».proof.Proof.Gen.KernelIdeal.Points
import Idealize.ShloMosaic.Lib.Pipeline.Value
import Idealize.ShloMosaic.Lib.ValueIdx

noncomputable section

namespace Cert.KernelIdeal.R1Val

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem N1 : cfg1.N = 64 := N_1

theorem col_ext {n : ℕ} {x y : (⟨2, ![n, 1]⟩ : Shape).Idx} (h : (x 0).val = (y 0).val) : x = y :=
  Shape.idx_ext₂ h (by have : (x 1).val < 1 := (x 1).isLt; have : (y 1).val < 1 := (y 1).isLt; omega)

theorem arrAt_of_tiles {cfg : Pipeline.Cfg sig Λ₀} {c : Dev nD} (dat : Dat τ (Elt F) Unit ℕ (UR sig nD τ) ℕ cfg c)
    (w : Fin cfg.W) (G : Buf (Elt F) ((cfg.win w).arr.view.loc (c.tc : Thread nD τ)))
    (P : Fin cfg.N → (cfg.win w).block.Idx → Elt F (cfg.win w).elt) (S : Fin cfg.N → Prop)
    (hS : ∀ t, (cfg.win w).flush t = true ↔ S t) (hP : ∀ t, S t → dat.after w t = P t)
    (pt : ((cfg.win w).arr.view.loc (c.tc : Thread nD τ)).2.ty.Idx → Fin cfg.N)
    (inb : ∀ i, ((cfg.win w).xblock (cfg.grid.coords (pt i))).Idx)
    (hG : ∀ t, S t → ∀ y, (cfg.win w).cut (cfg.grid.coords t) (P t) y = ((cfg.win w).blk t).view.read (Elt F) G y)
    (hc : ∀ i, S (pt i) ∧ ((cfg.win w).blk (pt i)).view.emb (inb i) = i) :
    dat.arrAt w cfg.N = G :=
  dat.arrAt_eq_of_cover w G
    (fun t hf => (congrArg ((cfg.win w).cut (cfg.grid.coords t)) (hP t ((hS t).mp hf))).trans (funext (hG t ((hS t).mp hf))))
    (fun i => ⟨pt i, (hS _).mpr (hc i).1, Finset.mem_map.mpr ⟨inb i, Finset.mem_univ _, (hc i).2⟩⟩)

def ptPow (i : S4096x4096.Idx) : Fin cfg1.N :=
  ⟨16 * ((i 0).val / 1024) + 4 * ((i 1).val / 1024) + 3, by
    have h0 : (i 0).val < 4096 := (i 0).isLt
    have h1 : (i 1).val < 4096 := (i 1).isLt
    rw [N1]; omega⟩

def inBlk (i : S4096x4096.Idx) : S1024x1024.Idx :=
  ix2 ⟨(i 0).val % 1024, Nat.mod_lt _ (by decide)⟩ ⟨(i 1).val % 1024, Nat.mod_lt _ (by decide)⟩

def akArr (c : Dev nD) : Vec F S4096x4096 .bf16 := fun i => Carry.ak1 V c (ptPow i) (inBlk i)

theorem akArr_apply (c : Dev nD) (r q : Fin 4096) :
    akArr V c (ix2 r q) = Carry.ak1 V c
      ⟨16 * (r.val / 1024) + 4 * (q.val / 1024) + 3, by have := r.isLt; have := q.isLt; rw [N1]; omega⟩
      (ix2 ⟨r.val % 1024, Nat.mod_lt _ (by decide)⟩ ⟨q.val % 1024, Nat.mod_lt _ (by decide)⟩) := rfl

theorem pow_tiles {α : Type} (P : Fin cfg1.N → S1024x1024.Idx → α) {e : Fin cfg1.N → S1024x1024.Idx → S4096x4096.Idx}
    (he : ∀ t y, (e t y 0).val = t.val / 16 * 1024 + (y 0).val ∧ (e t y 1).val = t.val / 4 % 4 * 1024 + (y 1).val) :
    (∀ t, t.val % 4 = 3 → ∀ y, P t y = P (ptPow (e t y)) (inBlk (e t y))) ∧
      ∀ i, (ptPow i).val % 4 = 3 ∧ e (ptPow i) (inBlk i) = i := by
  refine ⟨fun t ht y => ?_, fun i => ?_⟩
  · obtain ⟨h0, h1⟩ := he t y
    have hy0 : (y 0).val < 1024 := (y 0).isLt
    have hy1 : (y 1).val < 1024 := (y 1).isLt
    have hN : t.val < 64 := lt_of_lt_of_eq t.isLt N1
    have e1 : ptPow (e t y) = t :=
      Fin.ext (by show 16 * ((e t y 0).val / 1024) + 4 * ((e t y 1).val / 1024) + 3 = t.val; omega)
    have e2 : inBlk (e t y) = y :=
      Shape.idx_ext₂ (by show (e t y 0).val % 1024 = (y 0).val; omega) (by show (e t y 1).val % 1024 = (y 1).val; omega)
    rw [e1, e2]
  · obtain ⟨h0, h1⟩ := he (ptPow i) (inBlk i)
    have hv : (ptPow i).val = 16 * ((i 0).val / 1024) + 4 * ((i 1).val / 1024) + 3 := rfl
    have g0 : (inBlk i 0).val = (i 0).val % 1024 := rfl
    have g1 : (inBlk i 1).val = (i 1).val % 1024 := rfl
    have b0 : (i 0).val < 4096 := (i 0).isLt
    have b1 : (i 1).val < 4096 := (i 1).isLt
    exact ⟨by omega, Shape.idx_ext₂ (by omega) (by omega)⟩

def ptRow (i : S4096x1.Idx) : Fin cfg1.N :=
  ⟨16 * ((i 0).val / 1024) + 15, by
    have h0 : (i 0).val < 4096 := (i 0).isLt
    rw [N1]; omega⟩

def inRow (i : S4096x1.Idx) : S1024x1.Idx :=
  ix2 ⟨(i 0).val % 1024, Nat.mod_lt _ (by decide)⟩ (0 : Fin 1)

def nodeArr (c : Dev nD) : Vec F S4096x1 .f32 := fun i => Carry.node1 V c (ptRow i) (inRow i)
def stepArr (c : Dev nD) : Vec F S4096x1 .f32 := fun i => Carry.step1 V c (ptRow i) (inRow i)

theorem nodeArr_apply (c : Dev nD) (r : Fin 4096) :
    nodeArr V c (ix2 r (0 : Fin 1)) = Carry.node1 V c
      ⟨16 * (r.val / 1024) + 15, by have := r.isLt; rw [N1]; omega⟩
      (ix2 ⟨r.val % 1024, Nat.mod_lt _ (by decide)⟩ (0 : Fin 1)) := rfl
theorem stepArr_apply (c : Dev nD) (r : Fin 4096) :
    stepArr V c (ix2 r (0 : Fin 1)) = Carry.step1 V c
      ⟨16 * (r.val / 1024) + 15, by have := r.isLt; rw [N1]; omega⟩
      (ix2 ⟨r.val % 1024, Nat.mod_lt _ (by decide)⟩ (0 : Fin 1)) := rfl

theorem row_tiles {α : Type} (P : Fin cfg1.N → S1024x1.Idx → α) {e : Fin cfg1.N → S1024x1.Idx → S4096x1.Idx}
    (he : ∀ t y, (e t y 0).val = t.val / 16 * 1024 + (y 0).val) :
    (∀ t, t.val % 16 = 15 → ∀ y, P t y = P (ptRow (e t y)) (inRow (e t y))) ∧
      ∀ i, (ptRow i).val % 16 = 15 ∧ e (ptRow i) (inRow i) = i := by
  refine ⟨fun t ht y => ?_, fun i => ?_⟩
  · have h0 := he t y
    have hy0 : (y 0).val < 1024 := (y 0).isLt
    have hN : t.val < 64 := lt_of_lt_of_eq t.isLt N1
    have e1 : ptRow (e t y) = t := Fin.ext (by show 16 * ((e t y 0).val / 1024) + 15 = t.val; omega)
    have e2 : inRow (e t y) = y := col_ext (by show (e t y 0).val % 1024 = (y 0).val; omega)
    rw [e1, e2]
  · have h0 := he (ptRow i) (inRow i)
    have hv : (ptRow i).val = 16 * ((i 0).val / 1024) + 15 := rfl
    have g0 : (inRow i 0).val = (i 0).val % 1024 := rfl
    exact ⟨by omega, col_ext (by omega)⟩

theorem idxPow : ∀ t : Fin cfg1.N, win1_5.index t (0 : Fin 2) = t.val / 16 ∧ win1_5.index t (1 : Fin 2) = t.val / 4 % 4 :=
  (by decide +kernel : ∀ t : Fin grid1.N, _)
theorem idxNode : ∀ t : Fin cfg1.N, win1_6.index t (0 : Fin 2) = t.val / 16 :=
  (by decide +kernel : ∀ t : Fin grid1.N, _)
theorem idxStep : ∀ t : Fin cfg1.N, win1_7.index t (0 : Fin 2) = t.val / 16 :=
  (by decide +kernel : ∀ t : Fin grid1.N, _)

theorem arr1_of {c : Dev nD} (dat : Dat τ (Elt F) Unit ℕ (UR sig nD τ) ℕ cfg1 c)
    (h5 : ∀ t : Fin cfg1.N, t.val % 4 = 3 → dat.after 5 t = Carry.ak1 V c t)
    (h6 : ∀ t : Fin cfg1.N, t.val % 16 = 15 → dat.after 6 t = Carry.node1 V c t)
    (h7 : ∀ t : Fin cfg1.N, t.val % 16 = 15 → dat.after 7 t = Carry.step1 V c t) :
    dat.arrAt 5 cfg1.N = akArr V c ∧ dat.arrAt 6 cfg1.N = nodeArr V c ∧ dat.arrAt 7 cfg1.N = stepArr V c := by
  have p5 := pow_tiles (Carry.ak1 V c) (e := fun t => ((cfg1.win 5).blk t).view.emb) fun t y =>
    ⟨by show win1_5.index t 0 * 1024 + 1 * (y 0).val = _; rw [(idxPow t).1]; omega,
      by show win1_5.index t 1 * 1024 + 1 * (y 1).val = _; rw [(idxPow t).2]; omega⟩
  have p6 := row_tiles (Carry.node1 V c) (e := fun t => ((cfg1.win 6).blk t).view.emb) fun t y => by
    show win1_6.index t 0 * 1024 + 1 * (y 0).val = _; rw [idxNode t]; omega
  have p7 := row_tiles (Carry.step1 V c) (e := fun t => ((cfg1.win 7).blk t).view.emb) fun t y => by
    show win1_7.index t 0 * 1024 + 1 * (y 0).val = _; rw [idxStep t]; omega
  exact ⟨arrAt_of_tiles dat 5 (akArr V c) (Carry.ak1 V c) _ flush1_5 h5 ptPow inBlk p5.1 p5.2,
    arrAt_of_tiles dat 6 (nodeArr V c) (Carry.node1 V c) _ flush1_6 h6 ptRow inRow p6.1 p6.2,
    arrAt_of_tiles dat 7 (stepArr V c) (Carry.step1 V c) _ flush1_7 h7 ptRow inRow p7.1 p7.2⟩

theorem idxLhs : ∀ t : Fin cfg1.N, win1_0.index t (0 : Fin 2) = t.val / 16 ∧ win1_0.index t (1 : Fin 2) = t.val % 4 :=
  (by decide +kernel : ∀ t : Fin grid1.N, _)
theorem idxRhs : ∀ t : Fin cfg1.N, win1_1.index t (0 : Fin 2) = t.val % 4 ∧ win1_1.index t (1 : Fin 2) = t.val / 4 % 4 :=
  (by decide +kernel : ∀ t : Fin grid1.N, _)
theorem idxAv : ∀ t : Fin cfg1.N, win1_2.index t (0 : Fin 2) = t.val / 4 % 4 :=
  (by decide +kernel : ∀ t : Fin grid1.N, _)
theorem idxAr : ∀ t : Fin cfg1.N, win1_3.index t (0 : Fin 2) = t.val / 16 :=
  (by decide +kernel : ∀ t : Fin grid1.N, _)
theorem idxSp : ∀ t : Fin cfg1.N, win1_4.index t (0 : Fin 2) = t.val / 16 :=
  (by decide +kernel : ∀ t : Fin grid1.N, _)

theorem lhs1_apply (c : Dev nD) (t : Fin cfg1.N) (y0 y1 : Fin 1024) :
    Carry.lhs1 V c t (ix2 y0 y1) = (V c main_v35 : Vec F S4096x4096 .bf16)
      (ix2 ⟨1024 * (t.val / 16) + y0.val, by have := lt_of_lt_of_eq t.isLt N1; have := y0.isLt; omega⟩
        ⟨1024 * (t.val % 4) + y1.val, by have := y1.isLt; omega⟩) := by
  show V c main_v35 _ = _
  exact congrArg _ (Shape.idx_ext₂ (by show win1_0.index t 0 * 1024 + 1 * y0.val = 1024 * (t.val / 16) + y0.val; rw [(idxLhs t).1]; omega)
    (by show win1_0.index t 1 * 1024 + 1 * y1.val = 1024 * (t.val % 4) + y1.val; rw [(idxLhs t).2]; omega))

theorem rhs1_apply (c : Dev nD) (t : Fin cfg1.N) (y0 y1 : Fin 1024) :
    Carry.rhs1 V c t (ix2 y0 y1) = (V c main_v35 : Vec F S4096x4096 .bf16)
      (ix2 ⟨1024 * (t.val % 4) + y0.val, by have := y0.isLt; omega⟩
        ⟨1024 * (t.val / 4 % 4) + y1.val, by have := y1.isLt; omega⟩) := by
  show V c main_v35 _ = _
  exact congrArg _ (Shape.idx_ext₂ (by show win1_1.index t 0 * 1024 + 1 * y0.val = 1024 * (t.val % 4) + y0.val; rw [(idxRhs t).1]; omega)
    (by show win1_1.index t 1 * 1024 + 1 * y1.val = 1024 * (t.val / 4 % 4) + y1.val; rw [(idxRhs t).2]; omega))

theorem av1_apply (c : Dev nD) (t : Fin cfg1.N) (y0 : Fin 1024) :
    Carry.av1 V c t (ix2 y0 (0 : Fin 1)) = (V c main_v36 : Vec F S4096x1 .bf16)
      (ix2 ⟨1024 * (t.val / 4 % 4) + y0.val, by have := y0.isLt; omega⟩ (0 : Fin 1)) := by
  show V c main_v36 _ = _
  exact congrArg _ (col_ext (by show win1_2.index t 0 * 1024 + 1 * y0.val = 1024 * (t.val / 4 % 4) + y0.val; rw [idxAv t]; omega))

theorem ar1_apply (c : Dev nD) (t : Fin cfg1.N) (y0 : Fin 1024) :
    Carry.ar1 V c t (ix2 y0 (0 : Fin 1)) = (V c main_v19 : Vec F S4096x1 .f32)
      (ix2 ⟨1024 * (t.val / 16) + y0.val, by have := lt_of_lt_of_eq t.isLt N1; have := y0.isLt; omega⟩ (0 : Fin 1)) := by
  show V c main_v19 _ = _
  exact congrArg _ (col_ext (by show win1_3.index t 0 * 1024 + 1 * y0.val = 1024 * (t.val / 16) + y0.val; rw [idxAr t]; omega))

theorem sp1_apply (c : Dev nD) (t : Fin cfg1.N) (y0 : Fin 1024) :
    Carry.sp1 V c t (ix2 y0 (0 : Fin 1)) = (V c main_v18 : Vec F S4096x1 .f32)
      (ix2 ⟨1024 * (t.val / 16) + y0.val, by have := lt_of_lt_of_eq t.isLt N1; have := y0.isLt; omega⟩ (0 : Fin 1)) := by
  show V c main_v18 _ = _
  exact congrArg _ (col_ext (by show win1_4.index t 0 * 1024 + 1 * y0.val = 1024 * (t.val / 16) + y0.val; rw [idxSp t]; omega))

end Cert.KernelIdeal.R1Val

end
-- ==== Proof.R2Val.lean ====
import proofs.«407440_j80281528697035_2_alg».proof.Proof.R1Val

noncomputable section

namespace Cert.KernelIdeal.R2Val

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.R1Val (ptRow inRow row_tiles arrAt_of_tiles col_ext)

variable {F : FTy → Type} [FloatOps F]
variable (V : (c : Dev nD) → (b : Ref sig .tc) → Buf (Elt F) ((c : Thread nD τ).loc b))

theorem N2 : cfg2.N = 64 := N_2

def nodeArr2 (c : Dev nD) : Vec F S4096x1 .f32 := fun i => Carry.node2 V c (ptRow i) (inRow i)
def stepArr2 (c : Dev nD) : Vec F S4096x1 .f32 := fun i => Carry.step2 V c (ptRow i) (inRow i)

theorem nodeArr2_apply (c : Dev nD) (r : Fin 4096) :
    nodeArr2 V c (ix2 r (0 : Fin 1)) = Carry.node2 V c
      ⟨16 * (r.val / 1024) + 15, by have := r.isLt; rw [N2]; omega⟩
      (ix2 ⟨r.val % 1024, Nat.mod_lt _ (by decide)⟩ (0 : Fin 1)) := rfl
theorem idxNode : ∀ t : Fin cfg2.N, win2_5.index t (0 : Fin 2) = t.val / 16 :=
  (by decide +kernel : ∀ t : Fin grid2.N, _)
theorem idxStep : ∀ t : Fin cfg2.N, win2_6.index t (0 : Fin 2) = t.val / 16 :=
  (by decide +kernel : ∀ t : Fin grid2.N, _)

theorem arr2_of {c : Dev nD} (dat : Dat τ (Elt F) Unit ℕ (UR sig nD τ) ℕ cfg2 c)
    (h5 : ∀ t : Fin cfg2.N, t.val % 16 = 15 → dat.after 5 t = Carry.node2 V c t)
    (h6 : ∀ t : Fin cfg2.N, t.val % 16 = 15 → dat.after 6 t = Carry.step2 V c t) :
    dat.arrAt 5 cfg2.N = nodeArr2 V c ∧ dat.arrAt 6 cfg2.N = stepArr2 V c := by
  have p5 := row_tiles (Carry.node2 V c) (e := fun t => ((cfg2.win 5).blk t).view.emb) fun t y => by
    show win2_5.index t 0 * 1024 + 1 * (y 0).val = _; rw [idxNode t]; omega
  have p6 := row_tiles (Carry.step2 V c) (e := fun t => ((cfg2.win 6).blk t).view.emb) fun t y => by
    show win2_6.index t 0 * 1024 + 1 * (y 0).val = _; rw [idxStep t]; omega
  exact ⟨arrAt_of_tiles dat 5 (nodeArr2 V c) (Carry.node2 V c) _ flush2_5 h5 ptRow inRow p5.1 p5.2,
    arrAt_of_tiles dat 6 (stepArr2 V c) (Carry.step2 V c) _ flush2_6 h6 ptRow inRow p6.1 p6.2⟩

theorem idxLhs : ∀ t : Fin cfg2.N, win2_0.index t (0 : Fin 2) = t.val / 16 ∧ win2_0.index t (1 : Fin 2) = t.val % 4 :=
  (by decide +kernel : ∀ t : Fin grid2.N, _)
theorem idxRhs : ∀ t : Fin cfg2.N, win2_1.index t (0 : Fin 2) = t.val % 4 ∧ win2_1.index t (1 : Fin 2) = t.val / 4 % 4 :=
  (by decide +kernel : ∀ t : Fin grid2.N, _)
theorem idxAv : ∀ t : Fin cfg2.N, win2_2.index t (0 : Fin 2) = t.val / 4 % 4 :=
  (by decide +kernel : ∀ t : Fin grid2.N, _)
theorem idxAr : ∀ t : Fin cfg2.N, win2_3.index t (0 : Fin 2) = t.val / 16 :=
  (by decide +kernel : ∀ t : Fin grid2.N, _)
theorem idxSp : ∀ t : Fin cfg2.N, win2_4.index t (0 : Fin 2) = t.val / 16 :=
  (by decide +kernel : ∀ t : Fin grid2.N, _)

theorem lhs2_apply (c : Dev nD) (t : Fin cfg2.N) (y0 y1 : Fin 1024) :
    Carry.lhs2 V c t (ix2 y0 y1) = (V c main_v37_0 : Vec F S4096x4096 .bf16)
      (ix2 ⟨1024 * (t.val / 16) + y0.val, by have := lt_of_lt_of_eq t.isLt N2; have := y0.isLt; omega⟩
        ⟨1024 * (t.val % 4) + y1.val, by have := y1.isLt; omega⟩) := by
  show V c main_v37_0 _ = _
  exact congrArg _ (Shape.idx_ext₂ (by show win2_0.index t 0 * 1024 + 1 * y0.val = 1024 * (t.val / 16) + y0.val; rw [(idxLhs t).1]; omega)
    (by show win2_0.index t 1 * 1024 + 1 * y1.val = 1024 * (t.val % 4) + y1.val; rw [(idxLhs t).2]; omega))

theorem rhs2_apply (c : Dev nD) (t : Fin cfg2.N) (y0 y1 : Fin 1024) :
    Carry.rhs2 V c t (ix2 y0 y1) = (V c main_v35 : Vec F S4096x4096 .bf16)
      (ix2 ⟨1024 * (t.val % 4) + y0.val, by have := y0.isLt; omega⟩
        ⟨1024 * (t.val / 4 % 4) + y1.val, by have := y1.isLt; omega⟩) := by
  show V c main_v35 _ = _
  exact congrArg _ (Shape.idx_ext₂ (by show win2_1.index t 0 * 1024 + 1 * y0.val = 1024 * (t.val % 4) + y0.val; rw [(idxRhs t).1]; omega)
    (by show win2_1.index t 1 * 1024 + 1 * y1.val = 1024 * (t.val / 4 % 4) + y1.val; rw [(idxRhs t).2]; omega))

theorem av2_apply (c : Dev nD) (t : Fin cfg2.N) (y0 : Fin 1024) :
    Carry.av2 V c t (ix2 y0 (0 : Fin 1)) = (V c main_v38 : Vec F S4096x1 .bf16)
      (ix2 ⟨1024 * (t.val / 4 % 4) + y0.val, by have := y0.isLt; omega⟩ (0 : Fin 1)) := by
  show V c main_v38 _ = _
  exact congrArg _ (col_ext (by show win2_2.index t 0 * 1024 + 1 * y0.val = 1024 * (t.val / 4 % 4) + y0.val; rw [idxAv t]; omega))

theorem ar2_apply (c : Dev nD) (t : Fin cfg2.N) (y0 : Fin 1024) :
    Carry.ar2 V c t (ix2 y0 (0 : Fin 1)) = (V c main_v37_1 : Vec F S4096x1 .f32)
      (ix2 ⟨1024 * (t.val / 16) + y0.val, by have := lt_of_lt_of_eq t.isLt N2; have := y0.isLt; omega⟩ (0 : Fin 1)) := by
  show V c main_v37_1 _ = _
  exact congrArg _ (col_ext (by show win2_3.index t 0 * 1024 + 1 * y0.val = 1024 * (t.val / 16) + y0.val; rw [idxAr t]; omega))

theorem sp2_apply (c : Dev nD) (t : Fin cfg2.N) (y0 : Fin 1024) :
    Carry.sp2 V c t (ix2 y0 (0 : Fin 1)) = (V c main_v37_2 : Vec F S4096x1 .f32)
      (ix2 ⟨1024 * (t.val / 16) + y0.val, by have := lt_of_lt_of_eq t.isLt N2; have := y0.isLt; omega⟩ (0 : Fin 1)) := by
  show V c main_v37_2 _ = _
  exact congrArg _ (col_ext (by show win2_4.index t 0 * 1024 + 1 * y0.val = 1024 * (t.val / 16) + y0.val; rw [idxSp t]; omega))

end Cert.KernelIdeal.R2Val

end
-- ==== Proof.KV12.lean ====
import proofs.«407440_j80281528697035_2_alg».proof.Proof.Main
import proofs.«407440_j80281528697035_2_alg».proof.Proof.R1Val
import proofs.«407440_j80281528697035_2_alg».proof.Proof.R2Val
import proofs.«407440_j80281528697035_2_alg».proof.Proof.Math
import proofs.«407440_j80281528697035_2_alg».proof.Proof.Spec

noncomputable section

namespace Cert.KernelIdeal.KV12

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

def lo (r : Fin 4096) : Fin 1024 := ⟨r.val % 1024, Nat.mod_lt _ (by decide)⟩

def tPow (r q : Fin 4096) : Fin cfg1.N :=
  ⟨16 * (r.val / 1024) + 4 * (q.val / 1024) + 3, by have := r.isLt; have := q.isLt; rw [R1Val.N1]; omega⟩

def tRow (r : Fin 4096) : Fin cfg1.N := ⟨16 * (r.val / 1024) + 15, by have := r.isLt; rw [R1Val.N1]; omega⟩

theorem tPow_mod (r q : Fin 4096) : (tPow r q).val % 4 = 3 := by
  show (16 * (r.val / 1024) + 4 * (q.val / 1024) + 3) % 4 = 3; omega
theorem tRow_mod (r : Fin 4096) : (tRow r).val % 16 = 15 := by
  show (16 * (r.val / 1024) + 15) % 16 = 15; omega

theorem pow_row (r q : Fin 4096) (h : 1024 * ((tPow r q).val / 16) + (lo r).val < 4096) :
    (⟨1024 * ((tPow r q).val / 16) + (lo r).val, h⟩ : Fin 4096) = r :=
  Fin.ext (by
    have := r.isLt; have := q.isLt
    show 1024 * ((16 * (r.val / 1024) + 4 * (q.val / 1024) + 3) / 16) + r.val % 1024 = r.val; omega)
theorem pow_col (r q : Fin 4096) (h : 1024 * ((tPow r q).val / 4 % 4) + (lo q).val < 4096) :
    (⟨1024 * ((tPow r q).val / 4 % 4) + (lo q).val, h⟩ : Fin 4096) = q :=
  Fin.ext (by
    have := r.isLt; have := q.isLt
    show 1024 * ((16 * (r.val / 1024) + 4 * (q.val / 1024) + 3) / 4 % 4) + q.val % 1024 = q.val; omega)
theorem row_back (r : Fin 4096) (h : 1024 * ((tRow r).val / 16) + (lo r).val < 4096) :
    (⟨1024 * ((tRow r).val / 16) + (lo r).val, h⟩ : Fin 4096) = r :=
  Fin.ext (by
    have := r.isLt
    show 1024 * ((16 * (r.val / 1024) + 15) / 16) + r.val % 1024 = r.val; omega)

theorem w6_spec_of (c : Dev nD)
    (Af : Fin 4096 → Fin 4096 → EReal) (a1 s1 : Fin 4096 → EReal)
    (h35 : ∀ i j, (Main.V5 m ρ c main_v35 : FVec Ideal S4096x4096 .bf16) (ix2 i j) = Af i j)
    (h36 : ∀ i, (Main.V5 m ρ c main_v36 : FVec Ideal S4096x1 .bf16) (ix2 i (0 : Fin 1)) = a1 i)
    (h19 : ∀ i, (Main.V5 m ρ c main_v19 : FVec Ideal S4096x1 .f32) (ix2 i (0 : Fin 1)) = a1 i)
    (h18 : ∀ i, (Main.V5 m ρ c main_v18 : FVec Ideal S4096x1 .f32) (ix2 i (0 : Fin 1)) = s1 i) :
    (∀ i j, (Main.W6 m ρ c (Proc.devRef .tc main_v37_0) : FVec Ideal S4096x4096 .bf16) (ix2 i j) = Spec.boolMul Af Af i j)
    ∧ (∀ i, (Main.W6 m ρ c (Proc.devRef .tc main_v37_2) : FVec Ideal S4096x1 .f32) (ix2 i (0 : Fin 1))
        = s1 i + Spec.lg3 * Spec.matVec (Spec.boolMul Af Af) a1 i)
    ∧ (∀ i, (Main.W6 m ρ c (Proc.devRef .tc main_v37_1) : FVec Ideal S4096x1 .f32) (ix2 i (0 : Fin 1))
        = a1 i + (s1 i + Spec.lg3 * Spec.matVec (Spec.boolMul Af Af) a1 i)) := by
  have hl := R1Val.lhs1_apply (F := Ideal) (Main.V5 m ρ) c
  have hr := R1Val.rhs1_apply (F := Ideal) (Main.V5 m ρ) c
  have hav := R1Val.av1_apply (F := Ideal) (Main.V5 m ρ) c
  have har := R1Val.ar1_apply (F := Ideal) (Main.V5 m ρ) c
  have hsp := R1Val.sp1_apply (F := Ideal) (Main.V5 m ρ) c
  have eA : (fun i j => (Main.V5 m ρ c main_v35 : FVec Ideal S4096x4096 .bf16) (ix2 i j)) = Af :=
    funext fun i => funext fun j => h35 i j
  have ea : (fun j => (Main.V5 m ρ c main_v36 : FVec Ideal S4096x1 .bf16) (ix2 j (0 : Fin 1))) = a1 := funext h36
  obtain ⟨hA5, hA6, hA7⟩ := R1Val.arr1_of (Main.V5 m ρ) (R1.dat1 (Main.V5 m ρ) c) (R1.after1_5 (Main.V5 m ρ) c)
    (R1.after1_6 (Main.V5 m ρ) c) (R1.after1_7 (Main.V5 m ρ) c)
  refine ⟨fun i j => ?_, fun i => ?_, fun i => ?_⟩
  · rw [Main.W6_5, hA5, R1Val.akArr_apply]
    show Carry.ak1 (Main.V5 m ρ) c (tPow i j) (ix2 (lo i) (lo j)) = _
    rw [Math.ak1_spec (Main.V5 m ρ) c (Main.V5 m ρ c main_v35) (Main.V5 m ρ c main_v35) hl hr (tPow i j) (tPow_mod i j)
      (lo i) (lo j), eA, pow_row i j, pow_col i j]
  · rw [Main.W6_7, hA7, R1Val.stepArr_apply]
    show Carry.step1 (Main.V5 m ρ) c (tRow i) (ix2 (lo i) (0 : Fin 1)) = _
    rw [Math.step1_spec (Main.V5 m ρ) c (Main.V5 m ρ c main_v35) (Main.V5 m ρ c main_v35) (Main.V5 m ρ c main_v36)
      (Main.V5 m ρ c main_v18) hl hr hav hsp (tRow i) (tRow_mod i) (lo i), eA, ea, row_back i, h18 i]
  · rw [Main.W6_6, hA6, R1Val.nodeArr_apply]
    show Carry.node1 (Main.V5 m ρ) c (tRow i) (ix2 (lo i) (0 : Fin 1)) = _
    rw [Math.node1_spec (Main.V5 m ρ) c (Main.V5 m ρ c main_v35) (Main.V5 m ρ c main_v35) (Main.V5 m ρ c main_v36)
      (Main.V5 m ρ c main_v19) (Main.V5 m ρ c main_v18) hl hr hav har hsp (tRow i) (tRow_mod i) (lo i), eA, ea, row_back i, h19 i, h18 i]

theorem w8_spec_of (c : Dev nD)
    (B2 Af : Fin 4096 → Fin 4096 → EReal) (a2 s2 : Fin 4096 → EReal)
    (h370 : ∀ i j, (Main.V7 m ρ c main_v37_0 : FVec Ideal S4096x4096 .bf16) (ix2 i j) = B2 i j)
    (h35 : ∀ i j, (Main.V7 m ρ c main_v35 : FVec Ideal S4096x4096 .bf16) (ix2 i j) = Af i j)
    (h38 : ∀ i, (Main.V7 m ρ c main_v38 : FVec Ideal S4096x1 .bf16) (ix2 i (0 : Fin 1)) = a2 i)
    (h371 : ∀ i, (Main.V7 m ρ c main_v37_1 : FVec Ideal S4096x1 .f32) (ix2 i (0 : Fin 1)) = a2 i)
    (h372 : ∀ i, (Main.V7 m ρ c main_v37_2 : FVec Ideal S4096x1 .f32) (ix2 i (0 : Fin 1)) = s2 i) :
    ∀ i, (Main.W8 m ρ c (Proc.devRef .tc main_v39_0) : FVec Ideal S4096x1 .f32) (ix2 i (0 : Fin 1))
      = a2 i + (s2 i + Spec.lg4 * Spec.matVec (Spec.boolMul B2 Af) a2 i) := by
  have hl := R2Val.lhs2_apply (F := Ideal) (Main.V7 m ρ) c
  have hr := R2Val.rhs2_apply (F := Ideal) (Main.V7 m ρ) c
  have hav := R2Val.av2_apply (F := Ideal) (Main.V7 m ρ) c
  have har := R2Val.ar2_apply (F := Ideal) (Main.V7 m ρ) c
  have hsp := R2Val.sp2_apply (F := Ideal) (Main.V7 m ρ) c
  have eA : (fun i j => (Main.V7 m ρ c main_v37_0 : FVec Ideal S4096x4096 .bf16) (ix2 i j)) = B2 :=
    funext fun i => funext fun j => h370 i j
  have eB : (fun i j => (Main.V7 m ρ c main_v35 : FVec Ideal S4096x4096 .bf16) (ix2 i j)) = Af :=
    funext fun i => funext fun j => h35 i j
  have ea : (fun j => (Main.V7 m ρ c main_v38 : FVec Ideal S4096x1 .bf16) (ix2 j (0 : Fin 1))) = a2 := funext h38
  obtain ⟨hA5, -⟩ := R2Val.arr2_of (Main.V7 m ρ) (R2.dat2 (Main.V7 m ρ) c) (R2.after2_5 (Main.V7 m ρ) c)
    (R2.after2_6 (Main.V7 m ρ) c)
  intro i
  rw [Main.W8_result, hA5, R2Val.nodeArr2_apply]
  show Carry.node2 (Main.V7 m ρ) c (tRow i) (ix2 (lo i) (0 : Fin 1)) = _
  rw [Math.node2_spec (Main.V7 m ρ) c (Main.V7 m ρ c main_v37_0) (Main.V7 m ρ c main_v35) (Main.V7 m ρ c main_v38)
    (Main.V7 m ρ c main_v37_1) (Main.V7 m ρ c main_v37_2) hl hr hav har hsp (tRow i) (tRow_mod i) (lo i), eA, eB, ea, row_back i, h371 i, h372 i]

end Cert.KernelIdeal.KV12

end
-- ==== Proof.LibTake.lean ====
import Idealize.ShloMosaic.Lib.ValueIdx
import Idealize.ShloMosaic.Lib.ValueIdxRank1
import Idealize.ShloMosaic.Lib.StableHlo.Predicate
import Idealize.ShloMosaic.PureOps.Ideal.Laws

noncomputable section

open scoped BigOperators

namespace Idealize.ShloMosaic.ValueIdx

open Idealize.ShloMosaic

theorem ofFin_eq_ix1 {n : ℕ} (p : Fin n) : Shape.Idx.ofFin p = ix1 p := by
  funext d; match d with | ⟨0, _⟩ => rfl

theorem ixP_eq_ix2 {n : ℕ} (p : Fin n) : StableHlo.Predicate.ixP p = ix2 p (0 : Fin 1) := by
  funext d; match d with | ⟨0, _⟩ => rfl | ⟨1, _⟩ => rfl

theorem take_apply {α : Type} {N E w : ℕ} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e)
      = x (ix1 (⟨min (idx (ix2 e (0 : Fin 1))).toInt.toNat (N - 1), by omega⟩ : Fin N)) := by
  have h := StableHlo.Predicate.gather_take d hcoll hob hsim hivd x idx e hN
  simp only [ofFin_eq_ix1, ixP_eq_ix2] at h
  exact h

abbrev takeScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem takeScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (takeScatterDims N E wf).resultIdx? (ix1 e) idx = some (ix1 n)
      ↔ (idx (ix2 e (0 : Fin 1))).toInt = (n.val : ℤ) := by
  have hv : ∀ a : Fin 1, (takeScatterDims N E wf).start (ix1 e) idx a + ((takeScatterDims N E wf).window (ix1 e) a : ℤ)
      = (idx (ix2 e (0 : Fin 1))).toInt := fun a => by
    obtain rfl : a = 0 := Subsingleton.elim _ _
    unfold ScatterDims.start ScatterDims.window
    rw [dif_pos (show (0 : Fin 1) ∈ (takeScatterDims N E wf).scatterDimsToOperandDims from List.mem_singleton.mpr rfl),
      dif_neg (show (0 : Fin 1) ∉ (takeScatterDims N E wf).sKept from
        (show (takeScatterDims N E wf).sKept = [] from rfl) ▸ List.not_mem_nil), Nat.cast_zero, add_zero]
    exact congrArg (fun i => (idx i).toInt) (funext fun b => Fin.ext (by
      match b with
      | ⟨0, _⟩ => rfl
      | ⟨1, _⟩ => rfl))
  unfold ScatterDims.resultIdx?
  simp only [hv]
  constructor
  · intro h
    split at h
    · rename_i hb
      have h0 : (idx (ix2 e (0 : Fin 1))).toInt.toNat = n.val :=
        congrArg (fun f : (⟨1, ![N]⟩ : Shape).Idx => (f 0).val) (Option.some.inj h)
      have hb0 := (hb 0).1
      omega
    · exact absurd h (by simp)
  · intro hrow
    rw [dif_pos fun a => by
      obtain rfl : a = 0 := Subsingleton.elim _ _
      rw [hrow]
      exact ⟨Int.natCast_nonneg _, Int.ofNat_lt.mpr n.isLt⟩]
    congr 1
    funext a
    obtain rfl : a = 0 := Subsingleton.elim _ _
    exact Fin.ext (by show (idx (ix2 e (0 : Fin 1))).toInt.toNat = n.val; rw [hrow]; rfl)

theorem takeScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (takeScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (takeScatterDims N E wf) x idx upd (ix1 n) = _
  unfold Ideal.hostScatterAdd
  congr 1
  rw [Finset.sum_filter, Finset.sum_filter, ← Equiv.sum_comp (idxEquiv1 (n := E)).symm]
  refine Finset.sum_congr rfl fun e _ => ?_
  have he : (idxEquiv1 (n := E)).symm e = ix1 e := by
    funext d; match d with | ⟨0, _⟩ => rfl
  rw [he]
  simp only [takeScatter_resultIdx]

theorem scatter_set_map {α β : Type} {s si u : Shape} {w : ℕ} (g : α → β) (d : ScatterDims s si u)
    (x : s.Idx → α) (idx : IVec si w) (upd : u.Idx → α) (i : s.Idx) :
    g (Host.scatter d (fun _ b => b) x idx upd i)
      = Host.scatter d (fun _ b => b) (fun k => g (x k)) idx (fun j => g (upd j)) i := by
  unfold Host.scatter
  refine congrFun (List.foldl_hom (fun (r : s.Idx → α) k => g (r k)) ?_).symm i
  intro r n
  dsimp only
  generalize d.resultIdx? (u.rowMajor.symm n) idx = o
  cases o with
  | none => rfl
  | some j => funext k; dsimp only; split <;> rfl

end Idealize.ShloMosaic.ValueIdx

end
-- ==== Proof.HostK.lean ====
import proofs.«407440_j80281528697035_2_alg».proof.Proof.Gen.KernelIdeal.Launch
import proofs.«407440_j80281528697035_2_alg».proof.Proof.Spec
import proofs.«407440_j80281528697035_2_alg».proof.Proof.Adj
import proofs.«407440_j80281528697035_2_alg».proof.Proof.LibTake
import Idealize.ShloMosaic.Lib.StableHlo.Run
import Idealize.ShloMosaic.Lib.StableHlo.Predicate
import Idealize.ShloMosaic.Lib.ValueLayout
import Idealize.ShloMosaic.Lib.IdealHost
import Idealize.ShloMosaic.Lib.WordArith

noncomputable section

open scoped BigOperators

namespace Cert.KernelIdeal.HostK

open Cert.KernelIdeal Cert.KernelIdeal.Gen
open Idealize.ShloMosaic Idealize.ShloMosaic.TcCoe Idealize.ShloMosaic.ValueIdx

private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

private theorem bcast_col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← ixP_eq_ix2, ← ofFin_eq_ix1]
  exact StableHlo.Predicate.bcast_col1 h₁ v p

theorem flat_row {E : ℕ} (r : Fin 2) (x : IVec ⟨2, ![2, E]⟩ 32)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  rw [shapeCast_1a_a_apply]
  exact slice2_axis0_apply r.val x hs 0 e r (by simp)

section Terms

variable {F : FTy → Type} [FloatOps F]

def rowsK (ei : IVec S2x131072 32) : IVec S131072 32 :=
  shapeCast S131072 (extractStridedSlice S1x131072 ![0, 0] ei slices_S2x131072_S1x131072_0_0) shapeCasts_S1x131072_S131072
def colsK (ei : IVec S2x131072 32) : IVec S131072 32 :=
  shapeCast S131072 (extractStridedSlice S1x131072 ![1, 0] ei slices_S2x131072_S1x131072_1_0) shapeCasts_S1x131072_S131072

def wrapK (v : IVec S131072 32) : IVec S131072 32 :=
  select (cmpi .slt v (broadcastInDim S131072 ![] bcast_S_S131072 (constantI S_ 32 0#32)))
    (addi v (broadcastInDim S131072 ![] bcast_S_S131072 (constantI S_ 32 4096#32))) v

def takeK (x : FVec F S4096 .f32) (i : IVec S131072 32) : FVec F S131072 .f32 :=
  select
    (Host.reduce IntOp.andi
      (andi
        (cmpi .sge (broadcastInDim S131072x1 ![0] bcast_S131072_S131072x1_0 (wrapK i))
          (broadcastInDim S131072x1 ![] bcast_S_S131072x1 (constantI S_ 32 0#32)))
        (cmpi .sle (broadcastInDim S131072x1 ![0] bcast_S131072_S131072x1_0 (wrapK i))
          (broadcastInDim S131072x1 ![0, 1] bcast_S1x1_S131072x1_0_1
            (broadcastInDim S1x1 ![1] bcast_S1_S1x1_1 (constantI S1 32 4095#32)))))
      (constantI S_ 1 1#1) reducesTo_S131072x1_S131072_d1 h_S_)
    (Host.gather gather_S4096_S131072x1_S131072_n_0_n_n_0_1_1 x
      (broadcastInDim S131072x1 ![0] bcast_S131072_S131072x1_0 (wrapK i)))
    (broadcastInDim S131072 ![] bcast_S_S131072 (constant S_ .f32 0x7FC00000#32))

def stepOf (rows : IVec S131072 32) (taken : FVec F S131072 .f32) : FVec F S4096x1 .f32 :=
  shapeCast S4096x1
    (Host.scatterAdd scatter_S4096_S131072x1_S131072_n_0_0_1
      (broadcastInDim S4096 ![] bcast_S_S4096 (constant S_ .f32 0x00000000#32))
      (broadcastInDim S131072x1 ![0] bcast_S131072_S131072x1_0 rows)
      (mulf taken (broadcastInDim S131072 ![] bcast_S_S131072 (constant S_ .f32 0x3F317218#32))))
    shapeCasts_S4096_S4096x1

def pairsK (rows cols : IVec S131072 32) : IVec S131072x2 32 :=
  concatenate S131072x2 1
    [⟨S131072x1, broadcastInDim S131072x1 ![0] bcast_S131072_S131072x1_0 (wrapK rows)⟩,
     ⟨S131072x1, broadcastInDim S131072x1 ![0] bcast_S131072_S131072x1_0 (wrapK cols)⟩]
    concatenates_S131072x1_S131072x1_S131072x2_d1

def adjK (rows cols : IVec S131072 32) : FVec F S4096x4096 .bf16 :=
  Host.scatter scatter_S4096x4096_S131072x2_S131072_n_01_01_1 (fun _ b => b)
    (broadcastInDim S4096x4096 ![] bcast_S_S4096x4096 (constant S_ .bf16 0x0000#16))
    (pairsK rows cols)
    (broadcastInDim S131072 ![] bcast_S_S131072 (constant S_ .bf16 0x3F80#16))

end Terms

private theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_ones f l _ ?_ (fun n hn => h n (List.mem_cons_of_mem _ hn))
    rw [hi, h a List.mem_cons_self]; rfl

private theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl]
  refine foldl_andi_ones x _ _ hi ?_
  intro n hn
  rw [List.mem_filter] at hn
  exact hx n (by simpa using hn.2)

theorem wrapK_apply (v : IVec S131072 32) (e : Fin 131072) : wrapK v (ix1 e) = Cert.Spec.wrap (v (ix1 e)) := by
  show Scalar.select (IntOp.cmpi .slt (v (ix1 e)) 0#32) (IntOp.addi (v (ix1 e)) 4096#32) (v (ix1 e)) = _
  unfold Cert.Spec.wrap Scalar.select
  simp only [IntOp.cmpi, IntOp.addi]
  by_cases hs : (v (ix1 e)).slt 0#32 = true
  · simp [hs]
  · simp [hs]

theorem wrap_range (c : BitVec 32) (h : -4096 ≤ c.toInt ∧ c.toInt < 4096) :
    0 ≤ (Cert.Spec.wrap c).toInt ∧ (Cert.Spec.wrap c).toInt ≤ 4095 := by
  unfold Cert.Spec.wrap
  have c0 : (0#32 : BitVec 32).toInt = 0 := by decide
  have c4 : (4096#32 : BitVec 32).toInt = 4096 := by decide
  by_cases hs : c.slt 0#32 = true
  · rw [if_pos hs]
    have hlt : c.toInt < 0 := by have := BitVec.slt_iff_toInt_lt.1 hs; omega
    have := WordArith.toInt_add_of_bounds c 4096#32 (by rw [c4]; omega) (by rw [c4]; omega)
    rw [this, c4]; omega
  · rw [if_neg hs]
    have hge : ¬ c.toInt < (0#32 : BitVec 32).toInt := fun hh => hs (BitVec.slt_iff_toInt_lt.2 hh)
    omega

theorem takeK_apply (x : FVec Ideal S4096 .f32) (i : IVec S131072 32) (e : Fin 131072)
    (h : -4096 ≤ (i (ix1 e)).toInt ∧ (i (ix1 e)).toInt < 4096) :
    takeK x i (ix1 e) = x (ix1 (Cert.Spec.clampNode (Cert.Spec.wrap (i (ix1 e))))) := by
  obtain ⟨hw0, hw1⟩ := wrap_range _ h
  unfold takeK
  rw [select_apply, reduce_andi_ones _ _ _ _ (ix1 e) rfl, select_one,
    take_apply gather_S4096_S131072x1_S131072_n_0_n_n_0_1_1 rfl rfl rfl rfl _ _ e (by decide)]
  · refine congrArg x (congrArg ix1 (Fin.ext ?_))
    show min (broadcastInDim S131072x1 ![0] bcast_S131072_S131072x1_0 (wrapK i) (ix2 e (0 : Fin 1))).toInt.toNat (4096 - 1)
      = min (Cert.Spec.wrap (i (ix1 e))).toInt.toNat (4096 - 1)
    rw [bcast_col_apply, wrapK_apply]
  · intro k hk
    have hv : ((reducesTo_S131072x1_S131072_d1).drop k 0 : Nat) = k 0 := Shape.ReducesTo.drop_apply_val _ k 0
    rw [hk] at hv
    have hk' : k = ix2 e (0 : Fin 1) := by
      rw [eq_ix2 k]
      have h0 : k 0 = e := Fin.ext hv.symm
      have h1 : k 1 = (0 : Fin 1) := Fin.ext (by have := (k 1).isLt; change (k 1).val < 1 at this; change (k 1).val = 0; omega)
      rw [h0, h1]
      rfl
    rw [hk']
    refine IntOp.andi_eq_one.2 ⟨IntOp.cmpi_sge.2 ?_, IntOp.cmpi_sle.2 ?_⟩
    · rw [bcast_col_apply, wrapK_apply]
      change (0#32 : BitVec 32).toInt ≤ _
      have c0 : (0#32 : BitVec 32).toInt = 0 := by decide
      omega
    · rw [bcast_col_apply, wrapK_apply]
      change _ ≤ (4095#32 : BitVec 32).toInt
      have c5 : (4095#32 : BitVec 32).toInt = 4095 := by decide
      omega

theorem stepOf_apply (rows : IVec S131072 32) (taken : FVec Ideal S131072 .f32) (n : Fin 4096) (u : Fin 1) :
    stepOf rows taken (ix2 n u)
      = ∑ e ∈ Finset.univ.filter (fun e : Fin 131072 => (rows (ix1 e)).toInt = (n.val : ℤ)), taken (ix1 e) * Cert.Spec.lg2 := by
  unfold stepOf
  rw [shapeCast_a_a1_apply]
  have hd : scatter_S4096_S131072x1_S131072_n_0_0_1 = takeScatterDims 4096 131072 scatter_S4096_S131072x1_S131072_n_0_0_1_wf := rfl
  rw [hd, takeScatterAdd_apply]
  have hz : broadcastInDim S4096 ![] bcast_S_S4096 (constant (F := Ideal) S_ .f32 0x00000000#32) (ix1 n) = 0 := by
    rw [broadcastInDim_scalar_apply, constant_apply, Ideal.ofBits_zero_f32]
  rw [hz, zero_add]
  refine Finset.sum_congr ?_ fun e _ => ?_
  · ext e
    simp only [Finset.mem_filter, Finset.mem_univ, true_and]
    rw [bcast_col_apply]
  · rw [mulf_apply, broadcastInDim_scalar_apply, constant_apply]

theorem step1K_apply (a : FVec Ideal S4096x1 .f32) (ei : IVec S2x131072 32)
    (hcol : ∀ e : Fin 131072, -4096 ≤ (ei (ix2 (1 : Fin 2) e)).toInt ∧ (ei (ix2 (1 : Fin 2) e)).toInt < 4096)
    (n : Fin 4096) (u : Fin 1) :
    stepOf (rowsK ei) (takeK (shapeCast S4096 a shapeCasts_S4096x1_S4096) (colsK ei)) (ix2 n u)
      = Cert.Spec.step1 (fun i => a (ix2 i (0 : Fin 1))) (fun e => ei (ix2 (0 : Fin 2) e)) (fun e => ei (ix2 (1 : Fin 2) e)) n := by
  unfold Cert.Spec.step1
  rw [stepOf_apply]
  have hr : ∀ e : Fin 131072, rowsK ei (ix1 e) = ei (ix2 (0 : Fin 2) e) := fun e => flat_row (0 : Fin 2) ei _ _ e
  have hc : ∀ e : Fin 131072, colsK ei (ix1 e) = ei (ix2 (1 : Fin 2) e) := fun e => flat_row (1 : Fin 2) ei _ _ e
  refine Finset.sum_congr ?_ fun e _ => ?_
  · ext e
    simp only [Finset.mem_filter, Finset.mem_univ, true_and]
    rw [hr]
  · rw [takeK_apply _ _ e (by rw [hc]; exact hcol e), hc, shapeCast_a1_a_apply]

theorem pairsK_eq (ei : IVec S2x131072 32) :
    pairsK (rowsK ei) (colsK ei) = Cert.Spec.pairIdx (fun e => ei (ix2 (0 : Fin 2) e)) (fun e => ei (ix2 (1 : Fin 2) e)) := by
  funext k
  obtain ⟨e, c, rfl⟩ : ∃ (e : Fin 131072) (c : Fin 2), k = ix2 e c := ⟨k 0, k 1, eq_ix2 k⟩
  unfold pairsK Cert.Spec.pairIdx
  have hc : c.val = 0 ∨ c.val = 1 := by omega
  rcases hc with h0 | h1
  · have hc0 : c = (0 : Fin 2) := Fin.ext h0
    subst hc0
    show _ = Cert.Spec.wrap (ei (ix2 (0 : Fin 2) e))
    rw [concatenate_pair_apply_left (t := S131072x2) (s₁ := S131072x1) (s₂ := S131072x1) (1 : Fin 2) _ _ _
      (ix2 e (0 : Fin 2)) rfl (ix2 e (0 : Fin 1)) (fun b => by match b with | ⟨0, _⟩ => rfl | ⟨1, _⟩ => rfl)]
    rw [bcast_col_apply, wrapK_apply]
    exact congrArg Cert.Spec.wrap (flat_row (0 : Fin 2) ei _ _ e)
  · have hc1 : c = (1 : Fin 2) := Fin.ext h1
    subst hc1
    show _ = Cert.Spec.wrap (ei (ix2 (1 : Fin 2) e))
    rw [concatenate_pair_apply_right (t := S131072x2) (s₁ := S131072x1) (s₂ := S131072x1) (1 : Fin 2) _ _ _
      (ix2 e (1 : Fin 2)) rfl rfl (ix2 e (0 : Fin 1))
      (fun b hb => by
        match b with
        | ⟨0, _⟩ => rfl
        | ⟨1, _⟩ => exact absurd rfl hb)
      rfl]
    rw [bcast_col_apply, wrapK_apply]
    exact congrArg Cert.Spec.wrap (flat_row (1 : Fin 2) ei _ _ e)

theorem adjK_apply (ei : IVec S2x131072 32) (r q : Fin 4096) :
    adjK (F := Ideal) (rowsK ei) (colsK ei) (ix2 r q)
      = Cert.Spec.adjOf scatter_S4096x4096_S131072x2_S131072_n_01_01_1
          (Cert.Spec.pairIdx (fun e => ei (ix2 (0 : Fin 2) e)) (fun e => ei (ix2 (1 : Fin 2) e))) r q := by
  unfold adjK Cert.Spec.adjOf
  rw [pairsK_eq]
  have hz : (broadcastInDim S4096x4096 ![] bcast_S_S4096x4096 (constant (F := Ideal) S_ .bf16 0x0000#16)) = fun _ => (0 : EReal) := by
    funext j; rw [broadcastInDim_scalar_apply, constant_apply, Ideal.ofBits_zero_bf16]
  have ho : (broadcastInDim S131072 ![] bcast_S_S131072 (constant (F := Ideal) S_ .bf16 0x3F80#16)) = fun _ => (1 : EReal) := by
    funext j; rw [broadcastInDim_scalar_apply, constant_apply, Ideal.ofBits_one_bf16]
  rw [hz, ho]

section Entry

variable {F : FTy → Type} [FloatOps F]
variable (W : Valuation τ sig (Elt F))

theorem hostOps1_v8 : StableHlo.after hostOps1 W (Proc.devRef .tc main_v8) = rowsK (W (Proc.devRef .tc main_arg1)) := by
  dsimp only [hostOps1]; after_results <;> rfl
theorem hostOps1_v10 : StableHlo.after hostOps1 W (Proc.devRef .tc main_v10) = colsK (W (Proc.devRef .tc main_arg1)) := by
  dsimp only [hostOps1]; after_results <;> rfl
theorem hostOps1_v11 : StableHlo.after hostOps1 W (Proc.devRef .tc main_v11)
    = shapeCast S4096 (W (Proc.devRef .tc main_v6)) shapeCasts_S4096x1_S4096 := by
  dsimp only [hostOps1]; after_results <;> rfl
theorem hostOps1_v6 : StableHlo.after hostOps1 W (Proc.devRef .tc main_v6) = W (Proc.devRef .tc main_v6) := by
  dsimp only [hostOps1]; after_results

theorem hostOps1_1_v12 : StableHlo.after hostOps1_1 W (Proc.devRef .tc main_v12)
    = takeK (W (Proc.devRef .tc main_v11)) (W (Proc.devRef .tc main_v10)) := by
  dsimp only [hostOps1_1]
  after_results_simp <;> (try simp only [StableHlo.TRef.ofBuf, StableHlo.TRef.toBuf, cast_eq]) <;> rfl
theorem hostOps1_1_v8 : StableHlo.after hostOps1_1 W (Proc.devRef .tc main_v8) = W (Proc.devRef .tc main_v8) := by
  dsimp only [hostOps1_1]; after_results_simp
theorem hostOps1_1_v10 : StableHlo.after hostOps1_1 W (Proc.devRef .tc main_v10) = W (Proc.devRef .tc main_v10) := by
  dsimp only [hostOps1_1]; after_results_simp
theorem hostOps1_1_v6 : StableHlo.after hostOps1_1 W (Proc.devRef .tc main_v6) = W (Proc.devRef .tc main_v6) := by
  dsimp only [hostOps1_1]; after_results_simp

theorem hostOps1_2_v18 : StableHlo.after hostOps1_2 W (Proc.devRef .tc main_v18)
    = stepOf (W (Proc.devRef .tc main_v8)) (W (Proc.devRef .tc main_v12)) := by
  dsimp only [hostOps1_2]; after_results_simp <;> rfl
theorem hostOps1_2_v19 : StableHlo.after hostOps1_2 W (Proc.devRef .tc main_v19)
    = addf (W (Proc.devRef .tc main_v6)) (stepOf (W (Proc.devRef .tc main_v8)) (W (Proc.devRef .tc main_v12))) := by
  dsimp only [hostOps1_2]; after_results_simp <;> rfl
theorem hostOps1_2_v35 : StableHlo.after hostOps1_2 W (Proc.devRef .tc main_v35)
    = adjK (W (Proc.devRef .tc main_v8)) (W (Proc.devRef .tc main_v10)) := by
  dsimp only [hostOps1_2]; after_results_simp <;> rfl
theorem hostOps1_2_v36 : StableHlo.after hostOps1_2 W (Proc.devRef .tc main_v36)
    = truncf .bf16 (addf (W (Proc.devRef .tc main_v6)) (stepOf (W (Proc.devRef .tc main_v8)) (W (Proc.devRef .tc main_v12)))) bitsLt_bf16_f32 := by
  dsimp only [hostOps1_2]; after_results_simp <;> rfl

def entry1 : Valuation τ sig (Elt F) :=
  StableHlo.after hostOps1_2 (StableHlo.after hostOps1_1 (StableHlo.after hostOps1 W))

end Entry

section EntryValues

variable (W : Valuation τ sig (Elt Ideal))

abbrev a0Of : Fin 4096 → EReal := fun i => (W (Proc.devRef .tc main_v6) : FVec Ideal S4096x1 .f32) (ix2 i (0 : Fin 1))
abbrev rowOf : Fin 131072 → BitVec 32 := fun e => (W (Proc.devRef .tc main_arg1) : IVec S2x131072 32) (ix2 (0 : Fin 2) e)
abbrev colOf : Fin 131072 → BitVec 32 := fun e => (W (Proc.devRef .tc main_arg1) : IVec S2x131072 32) (ix2 (1 : Fin 2) e)

theorem entry1_v35_apply (i j : Fin 4096) :
    (entry1 W (Proc.devRef .tc main_v35) : FVec Ideal S4096x4096 .bf16) (ix2 i j)
      = Cert.Spec.adjOf scatter_S4096x4096_S131072x2_S131072_n_01_01_1 (Cert.Spec.pairIdx (rowOf W) (colOf W)) i j := by
  unfold entry1
  rw [hostOps1_2_v35, hostOps1_1_v8, hostOps1_1_v10, hostOps1_v8, hostOps1_v10]
  exact adjK_apply _ i j

theorem entry1_v18_apply (hcol : ∀ e : Fin 131072, -4096 ≤ (colOf W e).toInt ∧ (colOf W e).toInt < 4096) (i : Fin 4096) :
    (entry1 W (Proc.devRef .tc main_v18) : FVec Ideal S4096x1 .f32) (ix2 i (0 : Fin 1))
      = Cert.Spec.step1 (a0Of W) (rowOf W) (colOf W) i := by
  unfold entry1
  rw [hostOps1_2_v18, hostOps1_1_v8, hostOps1_1_v12, hostOps1_v8, hostOps1_v10, hostOps1_v11]
  exact step1K_apply _ _ hcol i 0

theorem entry1_v19_apply (hcol : ∀ e : Fin 131072, -4096 ≤ (colOf W e).toInt ∧ (colOf W e).toInt < 4096) (i : Fin 4096) :
    (entry1 W (Proc.devRef .tc main_v19) : FVec Ideal S4096x1 .f32) (ix2 i (0 : Fin 1))
      = a0Of W i + Cert.Spec.step1 (a0Of W) (rowOf W) (colOf W) i := by
  unfold entry1
  rw [hostOps1_2_v19, hostOps1_1_v8, hostOps1_1_v12, hostOps1_1_v6, hostOps1_v6, hostOps1_v8, hostOps1_v10, hostOps1_v11, addf_apply]
  exact congrArg (a0Of W i + ·) (step1K_apply _ _ hcol i 0)

theorem entry1_v36_apply (hcol : ∀ e : Fin 131072, -4096 ≤ (colOf W e).toInt ∧ (colOf W e).toInt < 4096) (i : Fin 4096) :
    (entry1 W (Proc.devRef .tc main_v36) : FVec Ideal S4096x1 .bf16) (ix2 i (0 : Fin 1))
      = a0Of W i + Cert.Spec.step1 (a0Of W) (rowOf W) (colOf W) i := by
  unfold entry1
  rw [hostOps1_2_v36, hostOps1_1_v8, hostOps1_1_v12, hostOps1_1_v6, hostOps1_v6, hostOps1_v8, hostOps1_v10, hostOps1_v11, truncf_apply, addf_apply]
  exact congrArg (a0Of W i + ·) (step1K_apply _ _ hcol i 0)

end EntryValues

end Cert.KernelIdeal.HostK

end
-- ==== Proof.KValue.lean ====
import proofs.«407440_j80281528697035_2_alg».proof.Proof.Main
import proofs.«407440_j80281528697035_2_alg».proof.Proof.Spec
import proofs.«407440_j80281528697035_2_alg».proof.Proof.Adj
import proofs.«407440_j80281528697035_2_alg».proof.Proof.KV0
import proofs.«407440_j80281528697035_2_alg».proof.Proof.KV12
import proofs.«407440_j80281528697035_2_alg».proof.Proof.HostK
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg)

theorem w7_of_ne (c : Dev nD) (r : Ref sig .tc) (hr : r ∉ hostOps2_W) :
    Main.W7 m ρ c (Proc.devRef .tc r) = Main.W6 m ρ c (Proc.devRef .tc r) :=
  StableHlo.after_of_writes_sub hostOps2 _ hostOps2_writes hr

theorem w7_v38 (c : Dev nD) (i : S4096x1.Idx) :
    (Main.W7 m ρ c (Proc.devRef .tc main_v38) : FVec Ideal S4096x1 .bf16) i
      = (Main.W6 m ρ c (Proc.devRef .tc main_v37_1) : FVec Ideal S4096x1 .f32) i := by
  have e : (Main.W7 m ρ c (Proc.devRef .tc main_v38) : FVec Ideal S4096x1 .bf16)
      = truncf (F := Ideal) .bf16 (Main.W6 m ρ c (Proc.devRef .tc main_v37_1) : FVec Ideal S4096x1 .f32) bitsLt_bf16_f32 := by
    show StableHlo.after hostOps2 (Main.W6 m ρ c) (Proc.devRef .tc main_v38) = _
    after_results
  rw [e]
  rfl

theorem w2_arg1 (c : Dev nD) :
    Main.W2 m ρ c (Proc.devRef .tc main_arg1) = m ((c.tc : Thread nD τ).loc main_arg1) :=
  (Main.W2_of_ne m ρ c main_arg1 (by decide)).trans
    (StableHlo.after_of_writes_sub hostOps0 _ hostOps0_writes (by decide))

abbrev node0 (x0 : FVec Ideal S4096x128 .f32) (x2 : FVec Ideal S128x128 .f32) (x3 : FVec Ideal S128 .f32)
    (x4 x5 : FVec Ideal S128x128 .f32) (x6 : FVec Ideal S1x128 .f32) (x7 : FVec Ideal S1 .f32) : Fin 4096 → EReal :=
  Spec.mlp (fun r k => x0 (ix2 r k)) (fun j k => x2 (ix2 j k)) (fun j => x3 (ix1 j)) (fun j k => x4 (ix2 j k))
    (fun j k => x5 (ix2 j k)) (fun k => x6 (ix2 (0 : Fin 1) k)) (x7 (ix1 (0 : Fin 1)))
abbrev rowOf (x1 : IVec S2x131072 32) : Fin 131072 → BitVec 32 := fun e => x1 (ix2 (0 : Fin 2) e)
abbrev colOf (x1 : IVec S2x131072 32) : Fin 131072 → BitVec 32 := fun e => x1 (ix2 (1 : Fin 2) e)

theorem kernel_result (c : Dev nD)
    (hpre : ∀ e : Fin 131072, -4096 ≤ ((m ((c.tc : Thread nD τ).loc main_arg1) : IVec S2x131072 32) (ix2 (1 : Fin 2) e)).toInt ∧ ((m ((c.tc : Thread nD τ).loc main_arg1) : IVec S2x131072 32) (ix2 (1 : Fin 2) e)).toInt < 4096)
    (n : Fin 4096) :
    (Main.W8 m ρ c (Proc.devRef .tc main_v39_0) : FVec Ideal S4096x1 .f32) (ix2 n (0 : Fin 1))
      = Spec.hops (node0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (Spec.adjOf scatter_S4096x4096_S131072x2_S131072_n_01_01_1 (Spec.pairIdx (rowOf (m ((c.tc : Thread nD τ).loc main_arg1))) (colOf (m ((c.tc : Thread nD τ).loc main_arg1)))))
          (rowOf (m ((c.tc : Thread nD τ).loc main_arg1))) (colOf (m ((c.tc : Thread nD τ).loc main_arg1))) n := by
  have ha : HostK.a0Of (Main.W2 (F := Ideal) m ρ c) = node0 _ _ _ _ _ _ _ := funext fun r => KV0.w2_node0 m ρ c r
  have hcol : ∀ e : Fin 131072, -4096 ≤ (HostK.colOf (Main.W2 (F := Ideal) m ρ c) e).toInt ∧ (HostK.colOf (Main.W2 (F := Ideal) m ρ c) e).toInt < 4096 := by
    unfold HostK.colOf; rw [w2_arg1]; exact hpre
  have h35 := HostK.entry1_v35_apply (Main.W2 (F := Ideal) m ρ c)
  obtain ⟨p0, p2, p1⟩ := KV12.w6_spec_of m ρ c _ _ _ h35 (HostK.entry1_v36_apply (Main.W2 (F := Ideal) m ρ c) hcol)
    (HostK.entry1_v19_apply (Main.W2 (F := Ideal) m ρ c) hcol) (HostK.entry1_v18_apply (Main.W2 (F := Ideal) m ρ c) hcol)
  have h := KV12.w8_spec_of m ρ c _ _ _ _
    (fun i j => (congrFun (w7_of_ne m ρ c main_v37_0 (by decide)) _).trans (p0 i j))
    (fun i j => ((congrFun (w7_of_ne m ρ c main_v35 (by decide)) _).trans
      (congrFun (Main.W6_of_ne m ρ c main_v35 (by decide) (by decide) (by decide)) _)).trans (h35 i j))
    (fun i => (w7_v38 m ρ c _).trans (p1 i))
    (fun i => (congrFun (w7_of_ne m ρ c main_v37_1 (by decide)) _).trans (p1 i))
    (fun i => (congrFun (w7_of_ne m ρ c main_v37_2 (by decide)) _).trans (p2 i)) n
  unfold HostK.rowOf HostK.colOf at h
  rw [ha, w2_arg1] at h
  exact h

end Cert.KernelIdeal.KValue

end
-- ==== Proof.PreCol.lean ====
import proofs.«407440_j80281528697035_2_alg».proof.Pre_finite_inputs
import proofs.«407440_j80281528697035_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.PreCol

open Idealize.ShloMosaic Idealize.ShloMosaic.ValueIdx
open Cert.Pre_finite_inputs

instance : Subsingleton S_.Idx := ⟨fun _ _ => funext fun d => d.elim0⟩

variable [Facts]

def cols (a1 : IVec S2x131072 32) : IVec S131072 32 :=
  shapeCast S131072 (extractStridedSlice S1x131072 ![1, 0] a1 Facts.slices_S2x131072_S1x131072_1_0)
    Facts.shapeCasts_S1x131072_S131072

theorem cols_apply (a1 : IVec S2x131072 32) (e : Fin 131072) : cols a1 (ix1 e) = a1 (ix2 (1 : Fin 2) e) := by
  unfold cols
  refine (shapeCast_dropUnit_apply ![131072] _ _ (ix1 e)).trans ?_
  refine extractStridedSlice_apply _ _ _ _ (ix2 (1 : Fin 2) e) fun a => ?_
  match a with
  | ⟨0, _⟩ => rfl
  | ⟨1, _⟩ => exact (Nat.zero_add _).symm

theorem col_range {F : FTy → Type} [FloatOps F] (a0 : FVec F S4096x128 .f32) (a1 : IVec S2x131072 32)
    (a2 : FVec F S128x128 .f32) (a3 : FVec F S128 .f32) (a4 a5 : FVec F S128x128 .f32) (a6 : FVec F S1x128 .f32)
    (a7 : FVec F S1 .f32) (h : Cert.Pre_finite_inputs.fn (F := F) a0 a1 a2 a3 a4 a5 a6 a7 = fun _ => 1#1)
    (e : Fin 131072) :
    -4096 ≤ (a1 (ix2 (1 : Fin 2) e)).toInt ∧ (a1 (ix2 (1 : Fin 2) e)).toInt < 4096 := by
  obtain ⟨hge, hlt⟩ := IntOp.andi_eq_one.1 (Host.reduce_andi_all
    (andi (cmpi .sge (cols a1) _) (cmpi .slt (cols a1) _)) _ _ _ _ (IntOp.andi_eq_one.1 (congrFun h ix0)).2 (ix1 e))
  have h1 := IntOp.cmpi_sge.1 hge
  have h2 := IntOp.cmpi_slt.1 hlt
  rw [cols_apply, StableHlo.Predicate.bcast_scalar _ Facts.h_S_] at h1 h2
  exact ⟨h1, h2⟩

end Cert.KernelIdeal.PreCol

end
-- ==== Proof.lean ====
/-
  Three hops of graph aggregation over the node vector of a four-layer perceptron: the blocked program and the
  plain reference are the same function of their inputs over the extended reals.
-/
import proofs.«407440_j80281528697035_2_alg».proof.Defs
import proofs.«407440_j80281528697035_2_alg».proof.Proof.Gen.Kernel
import proofs.«407440_j80281528697035_2_alg».proof.Proof.Gen.KernelIdeal
import proofs.«407440_j80281528697035_2_alg».proof.Proof.Gen.ReferenceIdeal
import proofs.«407440_j80281528697035_2_alg».proof.Proof.Gen.Pre_finite_inputs
import proofs.«407440_j80281528697035_2_alg».proof.Proof.Main
import proofs.«407440_j80281528697035_2_alg».proof.Proof.Ref
import proofs.«407440_j80281528697035_2_alg».proof.Proof.KValue
import proofs.«407440_j80281528697035_2_alg».proof.Proof.PreCol
import Idealize.ShloMosaic.Adequacy
import Idealize.ShloMosaic.Init

noncomputable section

namespace Cert.Proof

open Idealize.ShloMosaic Idealize.ShloMosaic.TcCoe Idealize.SL.Sem

variable {F : FTy → Type} [FloatOps F]

-- Under each label the two programs have the same body.
set_option maxHeartbeats 500000 in
theorem defs₀_eq : Cert.Kernel.defs₀ (F := F) = Cert.KernelIdeal.defs₀ (F := F) :=
  congrArg Defs.onTc (funext fun ℓ => funext fun a => match ℓ, a with
    | 0, (_, _) => rfl
    | 1, (_, _) => rfl
    | 2, (_, _) => rfl)

set_option maxHeartbeats 400000 in
theorem defs_eq : Cert.Kernel.defs (F := F) = Cert.KernelIdeal.defs (F := F) :=
  congrArg (Pipeline.defs Cert.KernelIdeal.pcfgs) defs₀_eq

set_option maxHeartbeats 1000000 in
theorem frame_k : Cert.frame_Kernel := fun m ρ _ => by
  have h := Cert.KernelIdeal.Main.frame (F := Bits) m ρ
  rw [← defs_eq] at h
  exact h

theorem frame_ki : Cert.frame_KernelIdeal := fun m ρ _ => Cert.KernelIdeal.Main.frame m ρ

theorem frame_ri : Cert.frame_ReferenceIdeal := fun m ρ _ =>
  (θ_run Cert.ReferenceIdeal.defs _ _).mono (fun _ h c => (h c).2) (Cert.ReferenceIdeal.ValueP.run (F := Ideal) m ρ)

-- Both runs end at the same function of the arguments, row by row.
theorem algebraic : Cert.algebraic_KernelIdeal_ReferenceIdeal := by
  intro m ρ m' ρ' hpre hagree
  refine ⟨fun c => Cert.KernelIdeal.Main.W8 m ρ c (Proc.devRef .tc Cert.KernelIdeal.main_v39_0),
    Cert.KernelIdeal.Main.run_result m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, rfl⟩ : ∃ n : Fin 4096, i = ValueIdx.ix2 n (0 : Fin 1) :=
    ⟨i 0, (ValueIdx.eq_ix2 i).trans (congrArg (ValueIdx.ix2 (i 0)) (Fin.ext (Nat.lt_one_iff.mp (ValueIdx.idx2_lt1 i))))⟩
  have hk := Cert.KernelIdeal.KValue.kernel_result m ρ c
    (fun e => Cert.KernelIdeal.PreCol.col_range _ _ _ _ _ _ _ _ (hpre c) e) n
  have hr := Cert.ReferenceIdeal.RefValue.result_eq m' c n
  rw [(hagree c).1, (hagree c).2.1, (hagree c).2.2.1, (hagree c).2.2.2.1, (hagree c).2.2.2.2.1,
    (hagree c).2.2.2.2.2.1, (hagree c).2.2.2.2.2.2.1, (hagree c).2.2.2.2.2.2.2] at hr
  exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
